-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x3200000 : Shape := ⟨2, ![2, 3200000]⟩
abbrev S1024x16 : Shape := ⟨2, ![1024, 16]⟩
abbrev S16 : Shape := ⟨1, ![16]⟩
abbrev S16x64 : Shape := ⟨2, ![16, 64]⟩
abbrev S64 : Shape := ⟨1, ![64]⟩
abbrev S64x64 : Shape := ⟨2, ![64, 64]⟩
abbrev S100000x1 : Shape := ⟨2, ![100000, 1]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part2 {F : FTy → Type} [FloatOps F] (main_arg8 : FVec F S64 .f32) (main_arg9 : FVec F S64 .f32) (main_arg10 : FVec F S100000x1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S100000x1 .f32 := Host.absf main_arg10
  let main_cst_16 : FVec F S_ .f32 := constant S_ .f32 0x7F800000#32
  let main_v45 : FVec F S100000x1 .f32 := broadcastInDim S100000x1 ![] bcast_S_S100000x1 main_cst_16
  let main_v46 : IVec S100000x1 1 := cmpf .olt main_v44 main_v45
  let main_c_17 : IVec S_ 1 := constantI S_ 1 1#1
  let main_v47 : IVec S_ 1 := (fun x v => Host.reduce IntOp.andi x v reducesTo_S100000x1_S_d0_1 h_S_) main_v46 main_c_17
  let main_v48 : IVec S_ 1 := andi main_v43 main_v47
  main_v48

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S100000x1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x1024 .f32) (main_arg1 : IVec S2x3200000 32) (main_arg2 : FVec F S1024x16 .f32) (main_arg3 : FVec F S16 .f32) (main_arg4 : FVec F S16x64 .f32) (main_arg5 : FVec F S64 .f32) (main_arg6 : FVec F S64x64 .f32) (main_arg7 : FVec F S64 .f32) (main_arg8 : FVec F S64 .f32) (main_arg9 : FVec F S64 .f32) (main_arg10 : FVec F S100000x1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x16 .f32 := Host.absf main_arg2
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_arg10 main_v13 main_v16
-- ==== Kernel.lean ====
abbrev S100000x1024 : Shape := ⟨2, ![100000, 1024]⟩
abbrev S2x3200000 : Shape := ⟨2, ![2, 3200000]⟩
abbrev S1024x16 : Shape := ⟨2, ![1024, 16]⟩
abbrev S16 : Shape := ⟨1, ![16]⟩
abbrev S16x64 : Shape := ⟨2, ![16, 64]⟩
abbrev S64 : Shape := ⟨1, ![64]⟩
abbrev S64x64 : Shape := ⟨2, ![64, 64]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1024 : Shape := ⟨2, ![2000, 1024]⟩
abbrev S2000x16 : Shape := ⟨2, ![2000, 16]⟩
abbrev S3300000x16 : Shape := ⟨2, ![3300000, 16]⟩
abbrev S1x16 : Shape := ⟨2, ![1, 16]⟩
abbrev S100000x64 : Shape := ⟨2, ![100000, 64]⟩
abbrev S2000x64 : Shape := ⟨2, ![2000, 64]⟩
abbrev S3300000x64 : Shape := ⟨2, ![3300000, 64]⟩
abbrev S1x64 : Shape := ⟨2, ![1, 64]⟩
abbrev S2000x1 : Shape := ⟨2, ![2000, 1]⟩
abbrev S2000 : Shape := ⟨1, ![2000]⟩

abbrev nBuf : Space → Nat
  | .hbm => 98
  | .vmem => 32
  | .smem => 0
  | _ => 0

abbrev bufTy : (tb : Table) → Fin (tcTables nBuf tb) → BufTy
  | .hbm, ⟨0, _⟩ => ⟨S100000x1024, .f32⟩
  | .hbm, ⟨1, _⟩ => ⟨S2x3200000, .i32⟩
  | .hbm, ⟨2, _⟩ => ⟨S1024x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S100000x1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x64, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x64, .f32⟩
  | .hbm, ⟨75, _⟩ => ⟨S3300000x1, .f32⟩
  | .hbm, ⟨76, _⟩ => ⟨S3300000x64, .f32⟩
  | .hbm, ⟨77, _⟩ => ⟨S3300000x64, .f32⟩
  | .hbm, ⟨78, _⟩ => ⟨S_, .f32⟩
  | .hbm, ⟨79, _⟩ => ⟨S100000x64, .f32⟩
  | .hbm, ⟨80, _⟩ => ⟨S3300000x1, .i32⟩
  | .hbm, ⟨81, _⟩ => ⟨S100000x64, .f32⟩
  | .hbm, ⟨82, _⟩ => ⟨S1x64, .f32⟩
  | .hbm, ⟨83, _⟩ => ⟨S1x64, .f32⟩
  | .hbm, ⟨84, _⟩ => ⟨S100000x64, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S_, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S100000x64, .f32⟩
  | .local _ .vmem, ⟨0, _⟩ => ⟨S2000x1024, .f32⟩
  | .local _ .vmem, ⟨1, _⟩ => ⟨S2000x1024, .f32⟩
  | .local _ .vmem, ⟨2, _⟩ => ⟨S1024x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x1, .f32⟩
  | .local _ .vmem, ⟨15, _⟩ => ⟨S2000x1, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev main_v60_2 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x1_S2000x1_0_0 : ∀ a, (![0, 0] : Fin 2 → Nat) a + S2000x1.size a ≤ S2000x1.size a
  h_S2000x1 : 0 < S2000x1.numel
  inb_S64x64_S64x64_0_0 : ∀ a, (![0, 0] : Fin 2 → Nat) a + S64x64.size a ≤ S64x64.size a
  h_S64x64 : 0 < S64x64.numel
  reduces_S2000x64_S64 : S2000x64.Reduces [0] S64
  bcast_S_S1x64 : S_.BroadcastsInDim S1x64 (![] : Fin 0 → Fin S1x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1024_S1024x16_S2000x16_1_0_0_1_n_n_wf : DotDims.WF S2000x1024 S1024x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x64_S2000x64_1_0_0_1_n_n_wf : DotDims.WF S2000x16 S16x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1024_S1024x16_S2000x16_1_0_0_1_n_n : DotDims S2000x1024 S1024x16 S2000x16 where
  lhsContracting := [1]
  rhsContracting := [0]
  lhsNonContracting := [0]
  rhsNonContracting := [1]
  lhsBatch := []
  rhsBatch := []
  wf := dot_S2000x1024_S1024x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x1024 : Shape := ⟨2, ![100000, 1024]⟩
abbrev S2x3200000 : Shape := ⟨2, ![2, 3200000]⟩
abbrev S1024x16 : Shape := ⟨2, ![1024, 16]⟩
abbrev S16 : Shape := ⟨1, ![16]⟩
abbrev S16x64 : Shape := ⟨2, ![16, 64]⟩
abbrev S64 : Shape := ⟨1, ![64]⟩
abbrev S64x64 : Shape := ⟨2, ![64, 64]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S100000x1024, .f32⟩
  | 1 => ⟨S2x3200000, .i32⟩
  | 2 => ⟨S1024x16, .f32⟩
  | 3 => ⟨S16, .f32⟩
  | 4 => ⟨S16x64, .f32⟩
  | 5 => ⟨S64, .f32⟩
  | 6 => ⟨S64x64, .f32⟩
  | 7 => ⟨S64, .f32⟩
  | 8 => ⟨S64, .f32⟩
  | 9 => ⟨S64, .f32⟩
  | 10 => ⟨S100000x1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S100000x16, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x1, .f32⟩
  | 58 => ⟨S3300000x16, .f32⟩
  | 59 => ⟨S3300000x16, .f32⟩
  | 60 => ⟨S_, .f32⟩
  | 61 => ⟨S100000x16, .f32⟩
  | 62 => ⟨S3300000x1, .i32⟩
  | 63 => ⟨S100000x16, .f32⟩
  | 64 => ⟨S1x16, .f32⟩
  | 65 => ⟨S100000x16, .f32⟩
  | 66 => ⟨S100000x16, .f32⟩
  | 67 => ⟨S_, .f32⟩
  | 68 => ⟨S100000x16, .f32⟩
  | 69 => ⟨S100000x16, .f32⟩
  | 70 => ⟨S100000x64, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x64, .f32⟩
  | 80 => ⟨S3300000x1, .f32⟩
  | 81 => ⟨S3300000x64, .f32⟩
  | 82 => ⟨S3300000x64, .f32⟩
  | 83 => ⟨S_, .f32⟩
  | 84 => ⟨S100000x64, .f32⟩
  | 85 => ⟨S3300000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x64, .f32⟩
  | 97 => ⟨S100000x64, .f32⟩
  | 98 => ⟨S100000x64, .f32⟩
  | 99 => ⟨S_, .f32⟩
  | 100 => ⟨S100000, .f32⟩
  | 101 => ⟨S100000x1, .f32⟩
  | 102 => ⟨S100000x1, .f32⟩
  | 103 => ⟨S100000x64, .f32⟩
  | 104 => ⟨S100000x64, .f32⟩
  | 105 => ⟨S100000x1, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S64, .f32⟩
  | 114 => ⟨S_, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S64, .f32⟩
  | 123 => ⟨S_, .f32⟩
  | 124 => ⟨S64, .f32⟩
  | 125 => ⟨S64, .f32⟩
  | 126 => ⟨S1x64, .f32⟩
  | 127 => ⟨S100000x64, .f32⟩
  | _ => ⟨S100000x1024, .f32⟩

abbrev hbmTy0_1 (i : Nat) : BufTy := match i % 128 with
  | 0 => ⟨S100000x64, .f32⟩
  | 1 => ⟨S_, .f32⟩
  | 2 => ⟨S64, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x64, .f32⟩
  | 21 => ⟨S100000x64, .f32⟩
  | 22 => ⟨S100000x64, .f32⟩
  | 23 => ⟨S_, .f32⟩
  | 24 => ⟨S100000, .f32⟩
  | 25 => ⟨S100000x1, .f32⟩
  | 26 => ⟨S100000x1, .f32⟩
  | 27 => ⟨S100000x64, .f32⟩
  | 28 => ⟨S100000x64, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_call1_cst_0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_cst_1 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_11 : Ref sig .tc := ⟨.hbm, 112, rfl⟩
abbrev main_v72 : Ref sig .tc := ⟨.hbm, 113, rfl⟩
abbrev main_cst_12 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_13 : Ref sig .tc := ⟨.hbm, 121, rfl⟩
abbrev main_v79 : Ref sig .tc := ⟨.hbm, 122, rfl⟩
abbrev main_cst_14 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_15 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call2_cst : Ref sig .tc := ⟨.hbm, 142, rfl⟩
abbrev main_call2_v0 : Ref sig .tc := ⟨.hbm, 143, rfl⟩
abbrev main_call2_cst_0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_cst_1 : Ref sig .tc := ⟨.hbm, 151, rfl⟩
abbrev main_call2_v7 : Ref sig .tc := ⟨.hbm, 152, rfl⟩
abbrev main_call2_v8 : Ref sig .tc := ⟨.hbm, 153, rfl⟩
abbrev main_call2_v9 : Ref sig .tc := ⟨.hbm, 154, rfl⟩
abbrev main_call2_v10 : Ref sig .tc := ⟨.hbm, 155, rfl⟩
abbrev main_v97 : Ref sig .tc := ⟨.hbm, 156, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1024_S1024x16_S100000x16_1_0_0_1_n_n_wf : DotDims.WF S100000x1024 S1024x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1024_S1024x16_S100000x16_1_0_0_1_n_n : DotDims S100000x1024 S1024x16 S100000x16 where
  lhsContracting := [1]
  rhsContracting := [0]
  lhsNonContracting := [0]
  rhsNonContracting := [1]
  lhsBatch := []
  rhsBatch := []
  wf := dot_S100000x1024_S1024x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Reg0.lean ====
import proofs.«405293_j84817014161572_1_alg».proof.Proof.Gen.KernelIdeal.Launch
import proofs.«405293_j84817014161572_1_alg».proof.Proof.Gen.KernelIdeal.Skeleton
import proofs.«405293_j84817014161572_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x1024 := Rect.unit (s := S2000x1024) ![0, 0] S2000x1024.size inb_S2000x1024_S2000x1024_0_0
abbrev r0_w : Rect S1024x16 := Rect.unit (s := S1024x16) ![0, 0] S1024x16.size inb_S1024x16_S1024x16_0_0
abbrev r0_o : Rect S2000x16 := Rect.unit (s := S2000x16) ![0, 0] S2000x16.size inb_S2000x16_S2000x16_0_0

theorem off0_zero : (![0, 0] : Fin 2 → Nat) = fun _ => 0 := funext (by decide)

def out0_2 (x0 : Vec F S2000x1024 .f32) (x1 : Vec F S1024x16 .f32) : Vec F S2000x16 .f32 :=
  View.canon [⟨r0_o, k0_pay1 x0 x1⟩]

theorem cover0_2 (p0 : Vec F S2000x16 .f32) (y : S2000x16.Idx) :
    ∃ pc ∈ ([⟨r0_o, p0⟩] : List (View.Piece (Elt F) S2000x16 .f32)), y ∈ pc.1.set :=
  ⟨_, List.mem_singleton_self _, View.mem_set_unit_zero off0_zero inb_S2000x16_S2000x16_0_0 y⟩

theorem pay0_ld (x0 : Vec F S2000x1024 .f32) (x1 : Vec F S1024x16 .f32) :
    k0_pay1 (View.ld x0 r0_x) (View.ld x1 r0_w) = k0_pay1 x0 x1 := by
  rw [show View.ld x0 r0_x = x0 from View.ld_unit_zero off0_zero inb_S2000x1024_S2000x1024_0_0 x0,
    show View.ld x1 r0_w = x1 from View.ld_unit_zero off0_zero inb_S1024x16_S1024x16_0_0 x1]

set_option maxHeartbeats 1000000 in

theorem sound_kernel0 (c : Dev nD) (E : Set ℕ) (i : grid0.Coords)
    (arg1 : Memref sig .tc .vmem S2000x1024 .f32) (harg1 : arg1.IsWhole)
    (arg2 : Memref sig .tc .vmem S1024x16 .f32) (harg2 : arg2.IsWhole)
    (arg3 : Memref sig .tc .vmem S2000x16 .f32) (harg3 : arg3.IsWhole)
    (x0 : Vec F S2000x1024 .f32) (x1 : Vec F S1024x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  unfold out0_2
  exact congrArg (fun p => View.canon [(⟨r0_o, p⟩ : View.Piece (Elt F) S2000x16 .f32)]) (pay0_ld _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_in (c : Dev nD) (t : Fin cfg0.N) :
    (∀ d, (dat0 V c).before 0 t d = iblk0 V c 0 t)
    ∧ (∀ d, (dat0 V c).before 1 t d = iblk0 V c 1 t) := by
  refine ⟨?_, ?_⟩ <;>
    exact fun d => ((dat0 V c).before_in_eq_fetched _ rfl (fun _ => rfl) (fun _ _ _ => rfl)
      (fun t => by unfold Dat.blockOf; dsimp only [dat0, iblk0]; try rfl) t d).trans
      (by unfold Dat.fetched Dat.blockOf; dsimp only [dat0, iblk0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0_in V c t).1, (before0_in V c t).2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.Reg1.lean ====
import proofs.«405293_j84817014161572_1_alg».proof.Proof.Gen.KernelIdeal.Launch
import proofs.«405293_j84817014161572_1_alg».proof.Proof.Gen.KernelIdeal.Skeleton
import proofs.«405293_j84817014161572_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_o : Rect S2000x64 := Rect.unit (s := S2000x64) ![0, 0] S2000x64.size inb_S2000x64_S2000x64_0_0

def out1_3 (x0 : Vec F S2000x16 .f32) (x1 : Vec F S1x16 .f32) (x2 : Vec F S16x64 .f32) : Vec F S2000x64 .f32 :=
  View.canon [⟨r1_o, k1_pay1 x0 x1 x2⟩]

theorem cover1_3 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

theorem readAt_whole1 {S : Shape} {e : EltTy} (v : View sig .tc .vmem S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

theorem out1_3_of_writes (arg1 : Memref sig .tc .vmem S2000x16 .f32) (arg2 : Memref sig .tc .vmem S1x16 .f32)
    (arg3 : Memref sig .tc .vmem S16x64 .f32) (arg4 : Memref sig .tc .vmem S2000x64 .f32)
    (f0 : arg1.view.ty.Contents (Elt F)) (f1 : arg2.view.ty.Contents (Elt F)) (f2 : arg3.view.ty.Contents (Elt F))
    (f3 : arg4.view.ty.Contents (Elt F)) :
    View.read (Elt F) arg4.view
      (arg4.view.writes (Elt F) f3
        [⟨Rect.unit ![0, 0] S2000x64.size inb_S2000x64_S2000x64_0_0,
            k1_pay1
              (View.readAt (Elt F) arg1.view (Rect.unit ![0, 0] S2000x16.size inb_S2000x16_S2000x16_0_0).toLoadRect f0)
              (View.readAt (Elt F) arg2.view (Rect.unit ![0, 0] S1x16.size inb_S1x16_S1x16_0_0).toLoadRect f1)
              (View.readAt (Elt F) arg3.view (Rect.unit ![0, 0] S16x64.size inb_S16x64_S16x64_0_0).toLoadRect f2)⟩]) =
    out1_3 (View.read (Elt F) arg1.view f0) (View.read (Elt F) arg2.view f1) (View.read (Elt F) arg3.view f2) := by
  refine (View.read_writes_eq_canon _ _ _ (cover1_3 _)).trans ?_
  rw [readAt_whole1 arg1.view f0 (by funext a; fin_cases a <;> rfl), readAt_whole1 arg2.view f1 (by funext a; fin_cases a <;> rfl),
    readAt_whole1 arg3.view f2 (by funext a; fin_cases a <;> rfl)]
  rfl

set_option maxHeartbeats 1000000 in

theorem sound_kernel1 (c : Dev nD) (E : Set ℕ) (i : grid1.Coords)
    (arg1 : Memref sig .tc .vmem S2000x16 .f32) (harg1 : arg1.IsWhole) (arg2 : Memref sig .tc .vmem S1x16 .f32) (harg2 : arg2.IsWhole)
    (arg3 : Memref sig .tc .vmem S16x64 .f32) (harg3 : arg3.IsWhole) (arg4 : Memref sig .tc .vmem S2000x64 .f32) (harg4 : arg4.IsWhole)
    (x0 : Vec F S2000x16 .f32) (x1 : Vec F S1x16 .f32) (x2 : Vec F S16x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_lin2_kernel i arg1 harg1 arg2 harg2 arg3 harg3 arg4 harg4) K := by
  simp only [cc1__relu_lin2_kernel_eq_skeleton]; unfold cc1__relu_lin2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact out1_3_of_writes arg1 arg2 arg3 arg4 f0 f1 f2 f3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_in (c : Dev nD) (t : Fin cfg1.N) :
    (∀ d, (dat1 V c).before 0 t d = iblk1 V c 0 t)
    ∧ (∀ d, (dat1 V c).before 1 t d = iblk1 V c 1 t)
    ∧ (∀ d, (dat1 V c).before 2 t d = iblk1 V c 2 t) := by
  refine ⟨?_, ?_, ?_⟩ <;>
    exact fun d => ((dat1 V c).before_in_eq_fetched _ rfl (fun _ => rfl) (fun _ _ _ => rfl)
      (fun t => by unfold Dat.blockOf; dsimp only [dat1, iblk1]; try rfl) t d).trans
      (by unfold Dat.fetched Dat.blockOf; dsimp only [dat1, iblk1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1_in V c t).1, (before1_in V c t).2.1, (before1_in V c t).2.2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Fr
-- ==== Proof.Reg2.lean ====
import proofs.«405293_j84817014161572_1_alg».proof.Proof.Gen.KernelIdeal.Launch
import proofs.«405293_j84817014161572_1_alg».proof.Proof.Gen.KernelIdeal.Skeleton
import proofs.«405293_j84817014161572_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2 (i : grid2.Coords) : Prop :=
  (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

theorem off00 : (![0, 0] : Fin 2 → ℕ) = fun _ => 0 := by funext a; fin_cases a <;> rfl

section Whole

variable {κ : Kind} {sp : Space} {S : Shape} {e : EltTy}

theorem readAt_whole0 (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_writes_whole0 (v : View sig κ sp S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Whole

set_option maxHeartbeats 4000000 in

theorem sound_kernel2_later (c : Dev nD) (E : Set ℕ) (i : grid2.Coords) (arg1 : Memref sig .tc .vmem S2000x64 .f32) (harg1 : arg1.IsWhole) (arg2 : Memref sig .tc .vmem S1x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc : ¬cond2 i) (x0 : Vec F S2000x64 .f32) (x1 : Vec F S1x64 .f32) (x2 : Vec F S2000x1 .f32) (x3 : Vec F S64x64 .f32) (x4 : Vec F S1x64 .f32) (s9 s10 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg7 fullShare (k2_pay1 (k2_pay6 x0 x1 x2 x3 x4 s9))
            ∗ owns (c : Thread nD τ) arg8 fullShare (k2_pay2 (k2_pay5 x0 x1 x2 x3 x4) s10)
            ∗ owns (c : Thread nD τ) arg9 fullShare (k2_pay1 (k2_pay6 x0 x1 x2 x3 x4 s9))
            ∗ owns (c : Thread nD τ) arg10 fullShare (k2_pay2 (k2_pay5 x0 x1 x2 x3 x4) s10)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K := by
  simp only [cc2__mlp_stats_kernel_eq_skeleton]; unfold cc2__mlp_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H7]
  · iexists _; isplitr
    swap; · iexact H7
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H8]
  · iexists _; isplitr
    swap; · iexact H8
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H9]
  · iexists _; isplitr
    swap; · iexact H9
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  iexists _; isplitr
  swap; · iexact H10
  ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]

set_option maxHeartbeats 4000000 in

theorem sound_kernel2_first (c : Dev nD) (E : Set ℕ) (i : grid2.Coords) (arg1 : Memref sig .tc .vmem S2000x64 .f32) (harg1 : arg1.IsWhole) (arg2 : Memref sig .tc .vmem S1x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc : cond2 i) (x0 : Vec F S2000x64 .f32) (x1 : Vec F S1x64 .f32) (x2 : Vec F S2000x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay5 x0 x1 x2 x3 x4)
            ∗ owns (c : Thread nD τ) arg7 fullShare (k2_pay1 (k2_pay6 x0 x1 x2 x3 x4 k2_pay3))
            ∗ owns (c : Thread nD τ) arg8 fullShare (k2_pay2 (k2_pay5 x0 x1 x2 x3 x4) k2_pay4)
            ∗ owns (c : Thread nD τ) arg9 fullShare (k2_pay1 (k2_pay6 x0 x1 x2 x3 x4 k2_pay3))
            ∗ owns (c : Thread nD τ) arg10 fullShare (k2_pay2 (k2_pay5 x0 x1 x2 x3 x4) k2_pay4)) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K := by
  simp only [cc2__mlp_stats_kernel_eq_skeleton]; unfold cc2__mlp_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H7]
  · iexists _; isplitr
    swap; · iexact H7
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H8]
  · iexists _; isplitr
    swap; · iexact H8
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  isplitl [H9]
  · iexists _; isplitr
    swap; · iexact H9
    ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]
  iexists _; isplitr
  swap; · iexact H10
  ipureintro; simp only [readAt_whole0 (S := S2000x64) _ off00, readAt_whole0 (S := S1x64) _ off00, readAt_whole0 (S := S2000x1) _ off00, readAt_whole0 (S := S64x64) _ off00, read_writes_whole0 (S := S2000x64) _ off00, read_writes_whole0 (S := S1x64) _ off00, View.readCov_cons_toLoadRect]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def mlp2 (c : Dev nD) (t : Fin cfg2.N) : Vec F S2000x64 .f32 :=
  k2_pay5 (iblk2 V c 0 t) (iblk2 V c 1 t) (iblk2 V c 2 t) (iblk2 V c 3 t) (iblk2 V c 4 t)

def accAt2 (c : Dev nD) : (n : ℕ) → n < cfg2.N → Vec F S1x64 .f32 × Vec F S1x64 .f32
  | 0, h => (k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) k2_pay3),
      k2_pay2 (mlp2 V c ⟨0, h⟩) k2_pay4)
  | n + 1, h => (k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
        (accAt2 c n (Nat.lt_of_succ_lt h)).1),
      k2_pay2 (mlp2 V c ⟨n + 1, h⟩) (accAt2 c n (Nat.lt_of_succ_lt h)).2)

theorem accAt2_zero (c : Dev nD) (h : 0 < cfg2.N) :
    accAt2 V c 0 h = (k2_pay1 (k2_pay6 (iblk2 V c 0 ⟨0, h⟩) (iblk2 V c 1 ⟨0, h⟩) (iblk2 V c 2 ⟨0, h⟩) (iblk2 V c 3 ⟨0, h⟩) (iblk2 V c 4 ⟨0, h⟩) k2_pay3),
      k2_pay2 (mlp2 V c ⟨0, h⟩) k2_pay4) := rfl

theorem accAt2_succ (c : Dev nD) (n : ℕ) (h : n + 1 < cfg2.N) :
    accAt2 V c (n + 1) h = (k2_pay1 (k2_pay6 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
        (accAt2 V c n (by omega)).1),
      k2_pay2 (mlp2 V c ⟨n + 1, h⟩) (accAt2 V c n (by omega)).2) := rfl

abbrev scM2_0 : Memref sig .tc .vmem S1x64 .f32 := Memref.whole cc2_scratch0
abbrev scM2_1 : Memref sig .tc .vmem S1x64 .f32 := Memref.whole cc2_scratch1

def Phi2 (c : Dev nD) (n : ℕ) (h : n ≤ cfg2.N) : sProp 𝕄 :=
  iprop((∃ d9 d10 : Vec F S1x64 .f32,
      ⌜∀ (k : ℕ) (hk : k + 1 = n), d9 = (accAt2 V c k (by omega)).1 ∧ d10 = (accAt2 V c k (by omega)).2⌝
        ∗ owns (c : Thread nD τ) scM2_0 fullShare d9 ∗ owns (c : Thread nD τ) scM2_1 fullShare d10)
    ∗ Pipeline.scopedRestBut (Ix := Unit) (Name := ℕ) (U := UR sig nD τ) (Lvl := ℕ) (Val := Elt F) spec2 c [cc2_scratch0, cc2_scratch1]
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => mlp2 V c t
    | ⟨6, _⟩ => (accAt2 V c t.val t.isLt).1
    | ⟨7, _⟩ => (accAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = mlp2 V c t := by dsimp only [dat2]
theorem after2_6 (c : Dev nD) (t : Fin cfg2.N) : (dat2 V c).after 6 t = (accAt2 V c t.val t.isLt).1 := by dsimp only [dat2]
theorem after2_7 (c : Dev nD) (t : Fin cfg2.N) : (dat2 V c).after 7 t = (accAt2 V c t.val t.isLt).2 := by dsimp only [dat2]

theorem accAt2_first (c : Dev nD) (t : Fin cfg2.N) (hz : t.val = 0) :
    accAt2 V c t.val t.isLt = (k2_pay1 (k2_pay6 (iblk2 V c 0 t) (iblk2 V c 1 t) (iblk2 V c 2 t) (iblk2 V c 3 t) (iblk2 V c 4 t) k2_pay3),
      k2_pay2 (mlp2 V c t) k2_pay4) := by
  obtain ⟨n, hn⟩ := t
  cases n with
  | zero => rfl
  | succ n => exact absurd hz (Nat.succ_ne_zero n)

theorem accAt2_later (c : Dev nD) (t : Fin cfg2.N) (hz : t.val ≠ 0) :
    accAt2 V c t.val t.isLt = (k2_pay1 (k2_pay6 (iblk2 V c 0 t) (iblk2 V c 1 t) (iblk2 V c 2 t) (iblk2 V c 3 t) (iblk2 V c 4 t)
        (accAt2 V c (t.val - 1) (Nat.lt_of_le_of_lt (Nat.sub_le _ _) t.isLt)).1),
      k2_pay2 (mlp2 V c t) (accAt2 V c (t.val - 1) (Nat.lt_of_le_of_lt (Nat.sub_le _ _) t.isLt)).2) := by
  obtain ⟨n, hn⟩ := t
  cases n with
  | zero => exact absurd rfl hz
  | succ n => rfl

theorem Phi2_castSucc (c : Dev nD) (t : Fin cfg2.N) :
    (dat2 V c).Φ t.castSucc = Phi2 V c t.val (Nat.le_of_lt t.isLt) := by
  dsimp only [dat2]; simp only [Fin.coe_castSucc]

theorem before2_in (c : Dev nD) (t : Fin cfg2.N) :
    (∀ d, (dat2 V c).before 0 t d = iblk2 V c 0 t)
    ∧ (∀ d, (dat2 V c).before 1 t d = iblk2 V c 1 t)
    ∧ (∀ d, (dat2 V c).before 2 t d = iblk2 V c 2 t)
    ∧ (∀ d, (dat2 V c).before 3 t d = iblk2 V c 3 t)
    ∧ (∀ d, (dat2 V c).before 4 t d = iblk2 V c 4 t) := by
  refine ⟨?_, ?_, ?_, ?_, ?_⟩ <;>
    exact fun d => ((dat2 V c).before_in_eq_fetched _ rfl (fun _ => rfl) (fun _ _ _ => rfl)
      (fun t => by unfold Dat.blockOf; dsimp only [dat2, iblk2]; try rfl) t d).trans
      (by unfold Dat.fetched Dat.blockOf; dsimp only [dat2, iblk2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2_in V c t).1, (before2_in V c t).2.1, (before2_in V c t).2.2.1, (before2_in V c t).2.2.2.1, (before2_in V c t).2.2.2.2]
  rw [show (dat2 V c).owesAt () t.succ = (dat2 V c).owesAt () t.castSucc from rfl]
  rw [show (dat2 V c).Φ t.succ = Phi2 V c (t.val + 1) t.isLt from rfl, Phi2_castSucc,
    after2_0, after2_1, after2_2, after2_3, after2_4, after2_5, after2_6, after2_7]
  unfold Phi2
  by_cases hz : t.val = 0
  · rw [accAt2_first V c t hz]
    iintro ⟨⟨⟨%d9, %d10, -, H9, H10⟩, Hr, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (sound_kernel2_first c Set.univ (grid2.coords t) _ _ _ _ _ _ _ _ _ _ _ _ _ _ _ _ _ _ _ _ ((hcond2 t).mpr hz)
      (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H9]; · iexists _; iexact H9
    isplitl [H10]; · iexists _; iexact H10
    iintro ⟨H0, H1, H2, H3, H4, H5, H6, H7, H9, H10⟩
    isplitl [H9 H10 Hr Hg]
    · isplitl [H9 H10]
      · iexists _; iexists _; isplitr
        swap
        · isplitl [H9]; · iexact H9
          iexact H10
        ipureintro; intro k hk
        obtain rfl : k = t.val := Nat.succ_injective hk
        have e := accAt2_first V c t hz
        exact ⟨(congrArg Prod.fst e).symm, (congrArg Prod.snd e).symm⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [accAt2_later V c t hz]
    iintro ⟨⟨⟨%d9, %d10, %hd, H9, H10⟩, Hr, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    obtain ⟨rfl, rfl⟩ := hd (t.val - 1) (Nat.succ_pred_eq_of_ne_zero hz)
    iapply (sound_kernel2_later c Set.univ (grid2.coords t) _ _ _ _ _ _ _ _ _ _ _ _ _ _ _ _ _ _ _ _ (fun h => hz ((hcond2 t).mp h))
      (iblk2 V c 0 t) (iblk2 V c 1 t) (iblk2 V c 2 t) (iblk2 V c 3 t) (iblk2 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H9]; · iexact H9
    isplitl [H10]; · iexact H10
    iintro ⟨H0, H1, H2, H3, H4, H5, H6, H7, H9, H10⟩
    isplitl [H9 H10 Hr Hg]
    · isplitl [H9 H10]
      · iexists _; iexists _; isplitr
        swap
        · isplitl [H9]; · iexact H9
          iexact H10
        ipureintro; intro k hk
        obtain rfl : k = t.val := Nat.succ_injective hk
        have e := accAt2_later V c t hz
        exact ⟨(congrArg Prod.fst e).symm, (congrArg Prod.snd e).symm⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation2 (c : Dev nD) : BodyObligation (dat2 (F := F) V c) (defs₀ (F := F)) Variants.none () Set.univ := fun t => by
  rw [bigSep_W2, bigSep_W2]
  exact sound_body2 V c t

theorem PhiA2_eq (c : Dev nD) :
    (Pipeline.ΦA spec2 c : sProp 𝕄)
      = iprop((iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA
  rw [Pipeline.scopedRest_split_of_list spec2 c [cc2_scratch0, cc2_scratch1] (by decide) (by decide)]
  simp only [bigSepL_cons_cons, bigSepL_singleton, scM2_0, scM2_1, owns_whole]
  try rfl

theorem hin2 (c : Dev nD) : Pipeline.ΦA spec2 c ⊢ (dat2 V c).Φ 0 := by
  rw [show (dat2 V c).Φ 0 = Phi2 V c 0 (Nat.zero_le _) from rfl, PhiA2_eq]
  unfold Phi2
  iintro ⟨⟨⟨⟨%d9, H9⟩, ⟨%d10, H10⟩⟩, Hr⟩, Hg⟩
  isplitl [H9 H10]
  · iexists d9; iexists d10; isplitr
    · ipureintro; intro k hk; exact absurd hk (Nat.succ_ne_zero k)
    isplitl [H9]; · iexact H9
    iexact H10
  isplitl [Hr]; · iexact Hr
  iexact Hg

theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl, PhiA2_eq]
  unfold Phi2
  iintro ⟨⟨%d9, %d10, -, H9, H10⟩, Hr, Hg⟩
  isplitl [H9 H10 Hr]
  · isplitl [H9 H10]
    · isplitl [H9]; · iexists _; iexact H9
      iexists _; iexact H10
    iexact Hr
  iexact Hg

end Cert.KernelIdeal.Fr

end
-- ==== Proof.Reg3.lean ====
import proofs.«405293_j84817014161572_1_alg».proof.Proof.Gen.KernelIdeal.Launch
import proofs.«405293_j84817014161572_1_alg».proof.Proof.Gen.KernelIdeal.Skeleton
import proofs.«405293_j84817014161572_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_o : Rect S2000x64 := Rect.unit (s := S2000x64) ![0, 0] S2000x64.size inb_S2000x64_S2000x64_0_0

abbrev r3_v : Rect S1x64 := Rect.unit (s := S1x64) ![0, 0] S1x64.size inb_S1x64_S1x64_0_0

theorem off3_zero : (![0, 0] : Fin 2 → ℕ) = fun _ => 0 := by
  funext a; fin_cases a <;> rfl

def out3_5 (x0 : Vec F S2000x64 .f32) (x1 x2 x3 x4 : Vec F S1x64 .f32) : Vec F S2000x64 .f32 :=
  View.canon [⟨r3_o, k3_pay1 x0 x2 x1 x3 x4⟩]

theorem cover3_5 (p0 : Vec F S2000x64 .f32) (y : S2000x64.Idx) :
    ∃ pc ∈ ([⟨r3_o, p0⟩] : List (View.Piece (Elt F) S2000x64 .f32)), y ∈ pc.1.set :=
  ⟨_, List.mem_singleton_self _, View.mem_set_unit_zero off3_zero inb_S2000x64_S2000x64_0_0 y⟩

set_option maxHeartbeats 1000000 in

theorem sound_kernel3 (c : Dev nD) (E : Set ℕ) (i : grid3.Coords)
    (arg1 : Memref sig .tc .vmem S2000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_final_kernel i arg1 harg1 arg2 harg2 arg3 harg3 arg4 harg4 arg5 harg5 arg6 harg6) K := by
  simp only [cc3__bn_final_kernel_eq_skeleton]; unfold cc3__bn_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro

  have e0 : View.readAt (Elt F) arg1.view r3_o.toLoadRect f0 = View.read (Elt F) arg1.view f0 :=
    View.ld_unit_zero off3_zero inb_S2000x64_S2000x64_0_0 (View.read (Elt F) arg1.view f0)
  have e1 : View.readAt (Elt F) arg2.view r3_v.toLoadRect f1 = View.read (Elt F) arg2.view f1 :=
    View.ld_unit_zero off3_zero inb_S1x64_S1x64_0_0 (View.read (Elt F) arg2.view f1)
  have e2 : View.readAt (Elt F) arg3.view r3_v.toLoadRect f2 = View.read (Elt F) arg3.view f2 :=
    View.ld_unit_zero off3_zero inb_S1x64_S1x64_0_0 (View.read (Elt F) arg3.view f2)
  have e3 : View.readAt (Elt F) arg4.view r3_v.toLoadRect f3 = View.read (Elt F) arg4.view f3 :=
    View.ld_unit_zero off3_zero inb_S1x64_S1x64_0_0 (View.read (Elt F) arg4.view f3)
  have e4 : View.readAt (Elt F) arg5.view r3_v.toLoadRect f4 = View.read (Elt F) arg5.view f4 :=
    View.ld_unit_zero off3_zero inb_S1x64_S1x64_0_0 (View.read (Elt F) arg5.view f4)
  refine (View.read_writes_eq_canon _ _ _ (cover3_5 _)).trans ?_
  unfold out3_5
  rw [e0, e1, e2, e3, e4]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_in (c : Dev nD) (t : Fin cfg3.N) :
    (∀ d, (dat3 V c).before 0 t d = iblk3 V c 0 t)
    ∧ (∀ d, (dat3 V c).before 1 t d = iblk3 V c 1 t)
    ∧ (∀ d, (dat3 V c).before 2 t d = iblk3 V c 2 t)
    ∧ (∀ d, (dat3 V c).before 3 t d = iblk3 V c 3 t)
    ∧ (∀ d, (dat3 V c).before 4 t d = iblk3 V c 4 t) := by
  refine ⟨?_, ?_, ?_, ?_, ?_⟩ <;>
    exact fun d => ((dat3 V c).before_in_eq_fetched _ rfl (fun _ => rfl) (fun _ _ _ => rfl)
      (fun t => by unfold Dat.blockOf; dsimp only [dat3, iblk3]; try rfl) t d).trans
      (by unfold Dat.fetched Dat.blockOf; dsimp only [dat3, iblk3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3_in V c t).1, (before3_in V c t).2.1, (before3_in V c t).2.2.1, (before3_in V c t).2.2.2.1, (before3_in V c t).2.2.2.2]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Region3

end Cert.KernelIdeal.Fr

end
-- ==== Proof.Run.lean ====
import proofs.«405293_j84817014161572_1_alg».proof.Proof.Reg0
import proofs.«405293_j84817014161572_1_alg».proof.Proof.Reg1
import proofs.«405293_j84817014161572_1_alg».proof.Proof.Reg2
import proofs.«405293_j84817014161572_1_alg».proof.Proof.Reg3
import proofs.«405293_j84817014161572_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Bd0 : Dev nD → Valuation τ sig (Elt F) := fun c b => (s₀ m ρ).mem ((c : Dev nD), b)

abbrev Bd1 : Dev nD → Valuation τ sig (Elt F) := fun c => StableHlo.after hostOps0 (Bd0 m ρ c)

abbrev En1 : (c : Dev nD) → (b : Ref sig .tc) → Buf (Elt F) ((c : Thread nD τ).loc b) := fun c b => Bd1 m ρ c b

def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb

abbrev Ex2 : (c : Dev nD) → (b : Ref sig .tc) → Buf (Elt F) ((c : Thread nD τ).loc b) := fun c b => Bd2 m ρ c b
theorem hF0 (c : Dev nD) (w : Fin cfg0.W) : (dat0 (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)

abbrev Bd3 : Dev nD → Valuation τ sig (Elt F) := fun c => StableHlo.after hostOps1 (Bd2 m ρ c)

abbrev En3 : (c : Dev nD) → (b : Ref sig .tc) → Buf (Elt F) ((c : Thread nD τ).loc b) := fun c b => Bd3 m ρ c b

def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb

abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)

abbrev Bd5 : Dev nD → Valuation τ sig (Elt F) := fun c => StableHlo.after hostOps2 (Bd4 m ρ c)

abbrev En5 : (c : Dev nD) → (b : Ref sig .tc) → Buf (Elt F) ((c : Thread nD τ).loc b) := fun c b => Bd5 m ρ c b

def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb

abbrev Ex6 : (c : Dev nD) → (b : Ref sig .tc) → Buf (Elt F) ((c : Thread nD τ).loc b) := fun c b => Bd6 m ρ c b
theorem hF2 (c : Dev nD) (w : Fin cfg2.W) : (dat2 (En5 m ρ) c).arrAt w cfg2.N = Ex6 m ρ c (Pipeline.arrRef spec2 w) :=
  (Bd6_arr m ρ c w).symm
theorem hrest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)

abbrev Bd7 : Dev nD → Valuation τ sig (Elt F) := fun c => StableHlo.after hostOps3 (Bd6 m ρ c)

abbrev En7 : (c : Dev nD) → (b : Ref sig .tc) → Buf (Elt F) ((c : Thread nD τ).loc b) := fun c b => Bd7 m ρ c b

def Bd8 (c : Dev nD) : Valuation τ sig (Elt F) :=
  Pipeline.withArrays spec3 c (Bd7 m ρ c) fun w => (dat3 (En7 m ρ) c).arrAt w cfg3.N
theorem Bd8_arr (c : Dev nD) (w : Fin cfg3.W) :
    Bd8 m ρ c (Proc.devRef .tc (Pipeline.arrRef spec3 w)) = (dat3 (En7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb

abbrev Ex8 : (c : Dev nD) → (b : Ref sig .tc) → Buf (Elt F) ((c : Thread nD τ).loc b) := fun c b => Bd8 m ρ c b
theorem hF3 (c : Dev nD) (w : Fin cfg3.W) : (dat3 (En7 m ρ) c).arrAt w cfg3.N = Ex8 m ρ c (Pipeline.arrRef spec3 w) :=
  (Bd8_arr m ρ c w).symm
theorem hrest3 (c : Dev nD) : ∀ b, b ∉ Finset.univ.image (Pipeline.arrRef spec3) → Ex8 m ρ c b = En7 m ρ c b :=
  fun b hb => Bd8_of_ne m ρ c b fun w e => hb (Finset.mem_image.mpr ⟨w, Finset.mem_univ _, e⟩)

abbrev args : List (Ref sig .tc) :=
  [main_arg0, main_arg1, main_arg2, main_arg3, main_arg4, main_arg5, main_arg6, main_arg7, main_arg8, main_arg9, main_arg10]

-- a region changes only the arrays of its output windows
theorem Bd2_keep (c : Dev nD) (b : Ref sig .tc) (hb : ∀ w, Pipeline.arrRef spec0 w = b → (cfg0.win w).isOut = false) :
    Bd2 m ρ c (Proc.devRef .tc b) = Bd1 m ρ c (Proc.devRef .tc b) := by
  by_cases h : ∃ w, Pipeline.arrRef spec0 w = b
  · obtain ⟨w, rfl⟩ := h
    exact (Bd2_arr m ρ c w).trans (((dat0 (En1 m ρ) c).arrAt_in w (hb w rfl) _).trans (A_eq0 (En1 m ρ) c w))
  · exact Bd2_of_ne m ρ c b fun w e => h ⟨w, e⟩
theorem Bd4_keep (c : Dev nD) (b : Ref sig .tc) (hb : ∀ w, Pipeline.arrRef spec1 w = b → (cfg1.win w).isOut = false) :
    Bd4 m ρ c (Proc.devRef .tc b) = Bd3 m ρ c (Proc.devRef .tc b) := by
  by_cases h : ∃ w, Pipeline.arrRef spec1 w = b
  · obtain ⟨w, rfl⟩ := h
    exact (Bd4_arr m ρ c w).trans (((dat1 (En3 m ρ) c).arrAt_in w (hb w rfl) _).trans (A_eq1 (En3 m ρ) c w))
  · exact Bd4_of_ne m ρ c b fun w e => h ⟨w, e⟩
theorem Bd6_keep (c : Dev nD) (b : Ref sig .tc) (hb : ∀ w, Pipeline.arrRef spec2 w = b → (cfg2.win w).isOut = false) :
    Bd6 m ρ c (Proc.devRef .tc b) = Bd5 m ρ c (Proc.devRef .tc b) := by
  by_cases h : ∃ w, Pipeline.arrRef spec2 w = b
  · obtain ⟨w, rfl⟩ := h
    exact (Bd6_arr m ρ c w).trans (((dat2 (En5 m ρ) c).arrAt_in w (hb w rfl) _).trans (A_eq2 (En5 m ρ) c w))
  · exact Bd6_of_ne m ρ c b fun w e => h ⟨w, e⟩
theorem Bd8_keep (c : Dev nD) (b : Ref sig .tc) (hb : ∀ w, Pipeline.arrRef spec3 w = b → (cfg3.win w).isOut = false) :
    Bd8 m ρ c (Proc.devRef .tc b) = Bd7 m ρ c (Proc.devRef .tc b) := by
  by_cases h : ∃ w, Pipeline.arrRef spec3 w = b
  · obtain ⟨w, rfl⟩ := h
    exact (Bd8_arr m ρ c w).trans (((dat3 (En7 m ρ) c).arrAt_in w (hb w rfl) _).trans (A_eq3 (En7 m ρ) c w))
  · exact Bd8_of_ne m ρ c b fun w e => h ⟨w, e⟩

-- so every argument keeps its launch contents through all eight items
theorem Bd1_arg (c : Dev nD) (b : Ref sig .tc) (hb : b ∈ args) : Bd1 m ρ c (Proc.devRef .tc b) = m ((c : Thread nD τ).loc b) :=
  (StableHlo.after_of_writes_sub hostOps0 _ hostOps0_writes ((by decide : ∀ b ∈ args, b ∉ hostOps0_W) b hb)).trans rfl
theorem Bd2_arg (c : Dev nD) (b : Ref sig .tc) (hb : b ∈ args) : Bd2 m ρ c (Proc.devRef .tc b) = m ((c : Thread nD τ).loc b) :=
  (Bd2_keep m ρ c b ((by decide : ∀ b ∈ args, ∀ w, Pipeline.arrRef spec0 w = b → (cfg0.win w).isOut = false) b hb)).trans (Bd1_arg m ρ c b hb)
theorem Bd3_arg (c : Dev nD) (b : Ref sig .tc) (hb : b ∈ args) : Bd3 m ρ c (Proc.devRef .tc b) = m ((c : Thread nD τ).loc b) :=
  (StableHlo.after_of_writes_sub hostOps1 _ hostOps1_writes ((by decide : ∀ b ∈ args, b ∉ hostOps1_W) b hb)).trans (Bd2_arg m ρ c b hb)
theorem Bd4_arg (c : Dev nD) (b : Ref sig .tc) (hb : b ∈ args) : Bd4 m ρ c (Proc.devRef .tc b) = m ((c : Thread nD τ).loc b) :=
  (Bd4_keep m ρ c b ((by decide : ∀ b ∈ args, ∀ w, Pipeline.arrRef spec1 w = b → (cfg1.win w).isOut = false) b hb)).trans (Bd3_arg m ρ c b hb)
theorem Bd5_arg (c : Dev nD) (b : Ref sig .tc) (hb : b ∈ args) : Bd5 m ρ c (Proc.devRef .tc b) = m ((c : Thread nD τ).loc b) :=
  (StableHlo.after_of_writes_sub hostOps2 _ hostOps2_writes ((by decide : ∀ b ∈ args, b ∉ hostOps2_W) b hb)).trans (Bd4_arg m ρ c b hb)
theorem Bd6_arg (c : Dev nD) (b : Ref sig .tc) (hb : b ∈ args) : Bd6 m ρ c (Proc.devRef .tc b) = m ((c : Thread nD τ).loc b) :=
  (Bd6_keep m ρ c b ((by decide : ∀ b ∈ args, ∀ w, Pipeline.arrRef spec2 w = b → (cfg2.win w).isOut = false) b hb)).trans (Bd5_arg m ρ c b hb)
theorem Bd7_arg (c : Dev nD) (b : Ref sig .tc) (hb : b ∈ args) : Bd7 m ρ c (Proc.devRef .tc b) = m ((c : Thread nD τ).loc b) :=
  (StableHlo.after_of_writes_sub hostOps3 _ hostOps3_writes ((by decide : ∀ b ∈ args, b ∉ hostOps3_W) b hb)).trans (Bd6_arg m ρ c b hb)
theorem Bd8_arg (c : Dev nD) (b : Ref sig .tc) (hb : b ∈ args) : Bd8 m ρ c (Proc.devRef .tc b) = m ((c : Thread nD τ).loc b) :=
  (Bd8_keep m ρ c b ((by decide : ∀ b ∈ args, ∀ w, Pipeline.arrRef spec3 w = b → (cfg3.win w).isOut = false) b hb)).trans (Bd7_arg m ρ c b hb)

theorem Bd8_main_v69 (c : Dev nD) : Bd8 m ρ c (Proc.devRef .tc main_v69) = (dat3 (En7 m ρ) c).arrAt 5 cfg3.N :=
  Bd8_arr m ρ c 5

def pdats : (p : Fin 4) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (Bd8 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Bd1 m ρ c) ∗ Rst c)
  post c := iprop(StableHlo.held (c : Thread nD τ) (Pipeline.ucRefs τ sig) (Bd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ Rst c)
  post c := iprop(StableHlo.held (c : Thread nD τ) (Pipeline.ucRefs τ sig) (Bd4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Bd5 m ρ c) ∗ Rst c)
  post c := iprop(StableHlo.held (c : Thread nD τ) (Pipeline.ucRefs τ sig) (Bd6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (En5 m ρ) c).Φ 0 from rfl]
    have hA : Pipeline.ΦA spec2 c ⊢ (dat2 (En5 m ρ) c).Φ 0 := hin2 (En5 m ρ) c
    unfold Pipeline.ΦA at hA
    iintro ⟨Hp, -, Hr⟩
    iapply hA
    isplitl [Hr]; · iexact Hr
    iexact Hp
  hout c := by
    rw [Pipeline.ownSems0_none, show (pdats m ρ 2 c).Φ (Fin.last _) = (dat2 (En5 m ρ) c).Φ (Fin.last cfg2.N) from rfl]
    have hA : (dat2 (En5 m ρ) c).Φ (Fin.last cfg2.N) ⊢ Pipeline.ΦA spec2 c := hout2 (En5 m ρ) c
    unfold Pipeline.ΦA at hA
    exact hA.trans (show _ ⊢ _ from by
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (Bd7 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .host (hseg hostOps3 hostOps3_sub hostOps3_fresh (Bd6 m ρ)),
    .region (reg3 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      r.2.mem ((c.tc : Thread nD τ).loc main_v69) = (dat3 (En7 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd8 m ρ c) s')
      isplitl [Hh] <;> iassumption)
    (hQ := fun s h c =>
      have ha : ∀ b ∈ args, s.mem ((c.tc : Thread nD τ).loc b) = m ((c.tc : Thread nD τ).loc b) := fun b hb =>
        (h c _ (mem_uc b ((by decide : ∀ b ∈ args, ¬ (Proc.devRef .tc b : DevRef τ sig).isScoped) b hb))).trans (Bd8_arg m ρ c b hb)
      ⟨(h c _ (mem_uc main_v69 (by decide))).trans (Bd8_main_v69 m ρ c), ha _ (by decide), ha _ (by decide), ha _ (by decide),
       ha _ (by decide), ha _ (by decide), ha _ (by decide), ha _ (by decide), ha _ (by decide), ha _ (by decide), ha _ (by decide),
       ha _ (by decide)⟩)

end Cert.KernelIdeal.Fr

end
-- ==== Proof.Spec.lean ====
import Idealize.ShloMosaic.PureOps.Ideal
import Idealize.ShloMosaic.Lib.ValueIdx

noncomputable section

open scoped BigOperators

namespace Gcn

open Idealize.ShloMosaic

abbrev NN : ℕ := 100000

abbrev Mat (a b : ℕ) : Type := Fin a → Fin b → EReal

def Fin2 {a b : ℕ} (m : Mat a b) : Prop := ∀ r j, ∃ x : ℝ, m r j = (x : EReal)

def Fin1 {a : ℕ} (v : Fin a → EReal) : Prop := ∀ j, ∃ x : ℝ, v j = (x : EReal)

def mm {n k m : ℕ} (a : Mat n k) (b : Mat k m) : Mat n m := fun r j => ∑ q : Fin k, a r q * b q j

def rowMax (z : Fin 64 → EReal) : EReal := Finset.univ.sup z

def rowSumExp (z : Fin 64 → EReal) : EReal := ∑ q : Fin 64, Ideal.exp (z q - rowMax z)

def lsmK (z : Fin 64 → EReal) (j : Fin 64) : EReal := z j - (Ideal.log (rowSumExp z) + rowMax z)

def lsmR (z : Fin 64 → EReal) (j : Fin 64) : EReal := (z j - rowMax z) - Ideal.log (rowSumExp z)

abbrev cN : EReal := Ideal.ofBits .f32 0x47C35000#32

abbrev cEps : EReal := Ideal.ofBits .f32 0x3727C5AC#32

section Layers

variable (agg16 : Mat NN 16 → Mat NN 16) (agg64 : Mat NN 64 → Mat NN 64)
variable (x : Mat NN 1024) (w1 : Mat 1024 16) (b1 : Fin 16 → EReal) (w2 : Mat 16 64) (b2 : Fin 64 → EReal)
  (mw : Mat 64 64) (mb : Fin 64 → EReal) (g be : Fin 64 → EReal) (wr : Fin NN → EReal)

def hid1 : Mat NN 16 := fun r j => max (agg16 (mm x w1) r j + b1 j) 0

def logits : Mat NN 64 := fun r j => agg64 (mm (hid1 agg16 x w1 b1) w2) r j + b2 j

def dense (ls : Mat NN 64) : Mat NN 64 := fun r j => (∑ q : Fin 64, (Ideal.exp (wr r) * ls r q) * mw q j) + mb j

def colMean (m : Mat NN 64) (j : Fin 64) : EReal := Ideal.div (∑ r : Fin NN, m r j) cN

def varK (m : Mat NN 64) (j : Fin 64) : EReal := Ideal.div (∑ r : Fin NN, m r j * m r j) cN - colMean m j * colMean m j

def varR (m : Mat NN 64) (j : Fin 64) : EReal :=
  Ideal.div (∑ r : Fin NN, (m r j - colMean m j) * (m r j - colMean m j)) cN

def bnorm (m : Mat NN 64) (v : Fin 64 → EReal) : Mat NN 64 :=
  fun r j => ((m r j - colMean m j) * Ideal.rsqrt (v j + cEps)) * g j + be j

def mlpK : Mat NN 64 := dense mw mb wr (fun r => lsmK (logits agg16 agg64 x w1 b1 w2 b2 r))

def mlpR : Mat NN 64 := dense mw mb wr (fun r => lsmR (logits agg16 agg64 x w1 b1 w2 b2 r))

def outK : Mat NN 64 := fun r =>
  lsmK (bnorm g be (mlpK agg16 agg64 x w1 b1 w2 b2 mw mb wr) (varK (mlpK agg16 agg64 x w1 b1 w2 b2 mw mb wr)) r)

def outR : Mat NN 64 := fun r =>
  lsmR (bnorm g be (mlpR agg16 agg64 x w1 b1 w2 b2 mw mb wr) (varR (mlpR agg16 agg64 x w1 b1 w2 b2 mw mb wr)) r)

end Layers

def fn2 {a b : ℕ} (v : (⟨2, ![a, b]⟩ : Shape).Idx → EReal) : Mat a b := fun r j => v (ValueIdx.ix2 r j)

def fn1 {a : ℕ} (v : (⟨1, ![a]⟩ : Shape).Idx → EReal) : Fin a → EReal := fun j => v (ValueIdx.ix1 j)

def fnCol {a : ℕ} (v : (⟨2, ![a, 1]⟩ : Shape).Idx → EReal) : Fin a → EReal := fun r => v (ValueIdx.ix2 r 0)

def arr2 {a b : ℕ} (m : Mat a b) : (⟨2, ![a, b]⟩ : Shape).Idx → EReal := fun i => m (i 0) (i 1)

theorem fn2_arr2 {a b : ℕ} (m : Mat a b) : fn2 (arr2 m) = m := rfl
theorem arr2_fn2 {a b : ℕ} (v : (⟨2, ![a, b]⟩ : Shape).Idx → EReal) : arr2 (fn2 v) = v := by
  funext i; exact congrArg v (ValueIdx.eq_ix2 i).symm

end Gcn

end
-- ==== Proof.PayK01.lean ====
import proofs.«405293_j84817014161572_1_alg».proof.Proof.Gen.KernelIdeal.Skeleton
import proofs.«405293_j84817014161572_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

theorem lhs_k0_0 (i : S2000x16.Idx) (q : dot_S2000x1024_S1024x16_S2000x16_1_0_0_1_n_n.contr.Idx) :
    (dot_S2000x1024_S1024x16_S2000x16_1_0_0_1_n_n.lhsIdx i q 0).val = (i 0).val := by
  unfold DotDims.lhsIdx
  rw [dif_neg (show ¬(0 : Fin S2000x1024.rank) ∈ dot_S2000x1024_S1024x16_S2000x16_1_0_0_1_n_n.lhsBatch by decide), dif_pos (show (0 : Fin S2000x1024.rank) ∈ dot_S2000x1024_S1024x16_S2000x16_1_0_0_1_n_n.lhsNonContracting by decide)]
  rfl
theorem lhs_k0_1 (i : S2000x16.Idx) (q : dot_S2000x1024_S1024x16_S2000x16_1_0_0_1_n_n.contr.Idx) :
    (dot_S2000x1024_S1024x16_S2000x16_1_0_0_1_n_n.lhsIdx i q 1).val = (q ⟨0, by decide⟩).val :=
  dot_S2000x1024_S1024x16_S2000x16_1_0_0_1_n_n.lhsIdx_val_of_single rfl i q
theorem rhs_k0_0 (i : S2000x16.Idx) (q : dot_S2000x1024_S1024x16_S2000x16_1_0_0_1_n_n.contr.Idx) :
    (dot_S2000x1024_S1024x16_S2000x16_1_0_0_1_n_n.rhsIdx i q 0).val = (q ⟨0, by decide⟩).val :=
  dot_S2000x1024_S1024x16_S2000x16_1_0_0_1_n_n.rhsIdx_val_of_single rfl i q
theorem rhs_k0_1 (i : S2000x16.Idx) (q : dot_S2000x1024_S1024x16_S2000x16_1_0_0_1_n_n.contr.Idx) :
    (dot_S2000x1024_S1024x16_S2000x16_1_0_0_1_n_n.rhsIdx i q 1).val = (i 1).val := by
  unfold DotDims.rhsIdx
  rw [dif_neg (show ¬(1 : Fin S1024x16.rank) ∈ dot_S2000x1024_S1024x16_S2000x16_1_0_0_1_n_n.rhsBatch by decide), dif_pos (show (1 : Fin S1024x16.rank) ∈ dot_S2000x1024_S1024x16_S2000x16_1_0_0_1_n_n.rhsNonContracting by decide)]
  rfl

theorem lidx_k0 (p : Fin 2000) (j : Fin 16) (k : Fin 1024) :
    dot_S2000x1024_S1024x16_S2000x16_1_0_0_1_n_n.lhsIdx (ix2 p j) ((contrEquiv1 dot_S2000x1024_S1024x16_S2000x16_1_0_0_1_n_n 1024 rfl rfl).symm k) = ix2 p k :=
  funext fun a => Fin.ext (by
    have hk := contrEquiv1_symm_val dot_S2000x1024_S1024x16_S2000x16_1_0_0_1_n_n 1024 rfl rfl k
    match a with
    | ⟨0, _⟩ => exact lhs_k0_0 _ _
    | ⟨1, _⟩ => exact (lhs_k0_1 _ _).trans hk)

theorem ridx_k0 (p : Fin 2000) (j : Fin 16) (k : Fin 1024) :
    dot_S2000x1024_S1024x16_S2000x16_1_0_0_1_n_n.rhsIdx (ix2 p j) ((contrEquiv1 dot_S2000x1024_S1024x16_S2000x16_1_0_0_1_n_n 1024 rfl rfl).symm k) = ix2 k j :=
  funext fun a => Fin.ext (by
    have hk := contrEquiv1_symm_val dot_S2000x1024_S1024x16_S2000x16_1_0_0_1_n_n 1024 rfl rfl k
    match a with
    | ⟨0, _⟩ => exact (rhs_k0_0 _ _).trans hk
    | ⟨1, _⟩ => exact rhs_k0_1 _ _)

theorem pay0_apply (xb : Vec Ideal S2000x1024 .f32) (w : Vec Ideal S1024x16 .f32) (p : Fin 2000) (j : Fin 16) :
    k0_pay1 (F := Ideal) xb w (ix2 p j) = ∑ q : Fin 1024, xb (ix2 p q) * w (ix2 q j) := by
  unfold k0_pay1
  refine (Ideal.matmul_constant_zero_apply dot_S2000x1024_S1024x16_S2000x16_1_0_0_1_n_n none _ _ (ix2 p j)).trans ?_
  refine (Equiv.sum_comp (contrEquiv1 dot_S2000x1024_S1024x16_S2000x16_1_0_0_1_n_n 1024 rfl rfl).symm _).symm.trans ?_
  refine Finset.sum_congr rfl fun k _ => ?_
  rw [lidx_k0 p j k, ridx_k0 p j k]
  rfl

theorem lhs_k1_0 (i : S2000x64.Idx) (q : dot_S2000x16_S16x64_S2000x64_1_0_0_1_n_n.contr.Idx) :
    (dot_S2000x16_S16x64_S2000x64_1_0_0_1_n_n.lhsIdx i q 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem lhs_k1_1 (i : S2000x64.Idx) (q : dot_S2000x16_S16x64_S2000x64_1_0_0_1_n_n.contr.Idx) :
    (dot_S2000x16_S16x64_S2000x64_1_0_0_1_n_n.lhsIdx i q 1).val = (q ⟨0, by decide⟩).val :=
  dot_S2000x16_S16x64_S2000x64_1_0_0_1_n_n.lhsIdx_val_of_single rfl i q
theorem rhs_k1_0 (i : S2000x64.Idx) (q : dot_S2000x16_S16x64_S2000x64_1_0_0_1_n_n.contr.Idx) :
    (dot_S2000x16_S16x64_S2000x64_1_0_0_1_n_n.rhsIdx i q 0).val = (q ⟨0, by decide⟩).val :=
  dot_S2000x16_S16x64_S2000x64_1_0_0_1_n_n.rhsIdx_val_of_single rfl i q
theorem rhs_k1_1 (i : S2000x64.Idx) (q : dot_S2000x16_S16x64_S2000x64_1_0_0_1_n_n.contr.Idx) :
    (dot_S2000x16_S16x64_S2000x64_1_0_0_1_n_n.rhsIdx i q 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

theorem lidx_k1 (p : Fin 2000) (j : Fin 64) (k : Fin 16) :
    dot_S2000x16_S16x64_S2000x64_1_0_0_1_n_n.lhsIdx (ix2 p j) ((contrEquiv1 dot_S2000x16_S16x64_S2000x64_1_0_0_1_n_n 16 rfl rfl).symm k) = ix2 p k :=
  funext fun a => Fin.ext (by
    have hk := contrEquiv1_symm_val dot_S2000x16_S16x64_S2000x64_1_0_0_1_n_n 16 rfl rfl k
    match a with
    | ⟨0, _⟩ => exact lhs_k1_0 _ _
    | ⟨1, _⟩ => exact (lhs_k1_1 _ _).trans hk)

theorem ridx_k1 (p : Fin 2000) (j : Fin 64) (k : Fin 16) :
    dot_S2000x16_S16x64_S2000x64_1_0_0_1_n_n.rhsIdx (ix2 p j) ((contrEquiv1 dot_S2000x16_S16x64_S2000x64_1_0_0_1_n_n 16 rfl rfl).symm k) = ix2 k j :=
  funext fun a => Fin.ext (by
    have hk := contrEquiv1_symm_val dot_S2000x16_S16x64_S2000x64_1_0_0_1_n_n 16 rfl rfl k
    match a with
    | ⟨0, _⟩ => exact (rhs_k1_0 _ _).trans hk
    | ⟨1, _⟩ => exact rhs_k1_1 _ _)

theorem scalar_zero_f32 : Scalar.ofBits (F := Ideal) .f32 0x00000000#32 = (0 : EReal) :=
  Ideal.ofBits_zero_f32

theorem k1_lhs_apply (a : Vec Ideal S2000x16 .f32) (b : Vec Ideal S1x16 .f32) (p : Fin 2000) (q : Fin 16) :
    maximumf (F := Ideal)
        (addf (shapeCast S2000x16 a shapeCasts_S2000x16_S2000x16)
          (broadcastTo S2000x16 (shapeCast S1x16 b shapeCasts_S1x16_S1x16) broadcasts_S1x16_S2000x16))
        (broadcast S2000x16 (Scalar.ofBits (F := Ideal) .f32 0x00000000#32)) (ix2 p q)
      = max (a (ix2 p q) + b (ix2 (0 : Fin 1) q)) 0 := by
  refine (maximumf_apply _ _ _).trans ?_
  refine congrArg₂ max ?_ ((broadcast_apply _ _).trans scalar_zero_f32)
  refine (addf_apply _ _ _).trans ?_
  refine congrArg₂ (· + ·) (congrFun (shapeCast_self a _) _) ?_
  refine (broadcastTo_1b_ab_apply _ _ p q).trans ?_
  exact congrFun (shapeCast_self b _) _

theorem pay1_apply (a : Vec Ideal S2000x16 .f32) (b : Vec Ideal S1x16 .f32) (w : Vec Ideal S16x64 .f32) (p : Fin 2000) (j : Fin 64) :
    k1_pay1 (F := Ideal) a b w (ix2 p j) = ∑ q : Fin 16, max (a (ix2 p q) + b (ix2 (0 : Fin 1) q)) 0 * w (ix2 q j) := by
  unfold k1_pay1
  refine (Ideal.matmul_constant_zero_apply dot_S2000x16_S16x64_S2000x64_1_0_0_1_n_n none _ _ (ix2 p j)).trans ?_
  refine (Equiv.sum_comp (contrEquiv1 dot_S2000x16_S16x64_S2000x64_1_0_0_1_n_n 16 rfl rfl).symm _).symm.trans ?_
  refine Finset.sum_congr rfl fun k _ => ?_
  rw [lidx_k1 p j k, ridx_k1 p j k]
  refine congrArg₂ (· * ·) ?_ rfl
  exact (truncf_apply (φ := .f32) (ψ := .bf16) _ bitsLt_bf16_f32 (ix2 p k)).trans (k1_lhs_apply a b p k)

end Cert.KernelIdeal.Pay

end
-- ==== Proof.Blk0.lean ====
import proofs.«405293_j84817014161572_1_alg».proof.Proof.Reg0
import proofs.«405293_j84817014161572_1_alg».proof.Proof.Spec
import proofs.«405293_j84817014161572_1_alg».proof.Proof.PayK01
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

abbrev xarr0 (c : Dev nD) : Vec Ideal S100000x1024 .f32 := V c main_arg0

abbrev warr0 (c : Dev nD) : Vec Ideal S1024x16 .f32 := V c main_arg2

abbrev xblk0 (c : Dev nD) (t : Fin cfg0.N) : Vec Ideal S2000x1024 .f32 := iblk0 V c 0 t

abbrev wblk0 (c : Dev nD) (t : Fin cfg0.N) : Vec Ideal S1024x16 .f32 := iblk0 V c 1 t

def prod0 (a0 : Vec Ideal S100000x1024 .f32) (a1 : Vec Ideal S1024x16 .f32) : Vec Ideal S100000x16 .f32 :=
  Gcn.arr2 (Gcn.mm (Gcn.fn2 a0) (Gcn.fn2 a1))

theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem xblk0_apply (c : Dev nD) (t : Fin cfg0.N) (p : Fin 2000) (q : Fin 1024) (r : Fin 100000)
    (hr : r.val = t.val * 2000 + p.val) : xblk0 V c t (ix2 p q) = xarr0 V c (ix2 r q) := by
  obtain ⟨e0, e1, -, -, -, -⟩ := idx_facts0 t
  show V c main_arg0 (((cfg0.win 0).blk t).view.emb (ix2 p q)) = V c main_arg0 (ix2 r q)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 1024 + 1 * q.val = q.val; omega

theorem wblk0_apply (c : Dev nD) (t : Fin cfg0.N) (q : Fin 1024) (j : Fin 16) :
    wblk0 V c t (ix2 q j) = warr0 V c (ix2 q j) := by
  obtain ⟨-, -, e2, e3, -, -⟩ := idx_facts0 t
  show V c main_arg2 (((cfg0.win 1).blk t).view.emb (ix2 q j)) = V c main_arg2 (ix2 q j)
  refine congrArg (V c main_arg2) ?_
  funext a; apply Fin.ext
  match a with
  | ⟨0, _⟩ => show win0_1.index t (0 : Fin 2) * 1024 + 1 * q.val = q.val; omega
  | ⟨1, _⟩ => show win0_1.index t (1 : Fin 2) * 16 + 1 * j.val = j.val; omega

theorem pay0_entry (xb : Vec Ideal S2000x1024 .f32) (wb : Vec Ideal S1024x16 .f32)
    (a0 : Vec Ideal S100000x1024 .f32) (a1 : Vec Ideal S1024x16 .f32) (p : Fin 2000) (j : Fin 16) (r : Fin 100000)
    (hx : ∀ q : Fin 1024, xb (ix2 p q) = a0 (ix2 r q)) (hw : ∀ q : Fin 1024, wb (ix2 q j) = a1 (ix2 q j)) :
    k0_pay1 (F := Ideal) xb wb (ix2 p j) = Gcn.mm (Gcn.fn2 a0) (Gcn.fn2 a1) r j := by
  refine (Pay.pay0_apply xb wb p j).trans ?_
  refine Finset.sum_congr rfl fun q _ => ?_
  rw [hx q, hw q]
  rfl

theorem flushed0_eq (c : Dev nD) (t : Fin cfg0.N) :
    (dat0 (F := Ideal) V c).flushed 2 t = ((cfg0.win 2).blk t).view.read (Elt Ideal) (prod0 (xarr0 V c) (warr0 V c)) := by
  show (cfg0.win 2).cut (grid0.coords t) ((dat0 (F := Ideal) V c).after 2 t) = _
  rw [after0_2]
  unfold out0_2
  rw [View.canon_unit_zero off0_zero]
  obtain ⟨-, -, -, -, e4, e5⟩ := idx_facts0 t
  have ht : t.val < 50 := by have hN : cfg0.N = 50 := N_0; have := t.isLt; omega
  funext y
  show k0_pay1 (F := Ideal) (xblk0 V c t) (wblk0 V c t) y
      = prod0 (xarr0 V c) (warr0 V c) (((cfg0.win 2).blk t).view.emb y)
  have hy0 : (y 0).val < 2000 := idx2_lt0 y
  have hy1 : (y 1).val < 16 := idx2_lt1 y
  have hemb : ((cfg0.win 2).blk t).view.emb y = ix2 (⟨t.val * 2000 + (y 0).val, by omega⟩ : Fin 100000) (y 1) := by
    funext a; apply Fin.ext
    match a with
    | ⟨0, _⟩ => show win0_2.index t (0 : Fin 2) * 2000 + 1 * (y 0).val = t.val * 2000 + (y 0).val; omega
    | ⟨1, _⟩ => show win0_2.index t (1 : Fin 2) * 16 + 1 * (y 1).val = (y 1).val; omega
  rw [hemb]
  refine (congrArg (k0_pay1 (F := Ideal) (xblk0 V c t) (wblk0 V c t)) (eq_ix2 y)).trans ?_
  exact pay0_entry (xblk0 V c t) (wblk0 V c t) (xarr0 V c) (warr0 V c) (y 0) (y 1) ⟨t.val * 2000 + (y 0).val, by omega⟩
    (fun q => xblk0_apply V c t (y 0) q _ rfl) (fun q => wblk0_apply V c t q (y 1))

theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v29).slice (win0_2.rect t)).set ↔ _
  rw [View.set_slice_whole, Rect.mem_set_unit]
  exact Iff.rfl

theorem covered0 (i : S100000x16.Idx) :
    ∃ t : Fin cfg0.N, (cfg0.win 2).flush t = true ∧ i ∈ ((cfg0.win 2).blk t).view.set := by
  have hi0 : (i 0).val < 100000 := idx2_lt0 i
  have hi1 : (i 1).val < 16 := idx2_lt1 i
  have hN : cfg0.N = 50 := N_0
  have hlt : (i 0).val / 2000 < cfg0.N := by omega
  obtain ⟨-, -, -, -, e4, e5⟩ := idx_facts0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    have e4' : win0_2.index ⟨(i 0).val / 2000, hlt⟩ (0 : Fin 2) = (i 0).val / 2000 := e4
    omega
  | ⟨1, _⟩ =>
    show win0_2.index ⟨(i 0).val / 2000, hlt⟩ (1 : Fin 2) * 16 ≤ (i 1).val ∧ (i 1).val < win0_2.index ⟨(i 0).val / 2000, hlt⟩ (1 : Fin 2) * 16 + 16
    omega

theorem arr0_eq (c : Dev nD) : (dat0 (F := Ideal) V c).arrAt 2 cfg0.N = prod0 (xarr0 V c) (warr0 V c) :=
  (dat0 (F := Ideal) V c).arrAt_eq_of_cover 2 (prod0 (xarr0 V c) (warr0 V c)) (fun t _ => flushed0_eq V c t) covered0

theorem final0 (c : Dev nD) :
    Gcn.fn2 ((dat0 (F := Ideal) V c).arrAt 2 cfg0.N) = Gcn.mm (Gcn.fn2 (V c main_arg0)) (Gcn.fn2 (V c main_arg2)) :=
  (congrArg Gcn.fn2 (arr0_eq V c)).trans (Gcn.fn2_arr2 _)

end Cert.KernelIdeal.Val

end
-- ==== Proof.Blk1.lean ====
import proofs.«405293_j84817014161572_1_alg».proof.Proof.Reg1
import proofs.«405293_j84817014161572_1_alg».proof.Proof.Spec
import proofs.«405293_j84817014161572_1_alg».proof.Proof.PayK01
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

abbrev harr1 (c : Dev nD) : Vec Ideal S100000x16 .f32 := V c main_v42

abbrev barr1 (c : Dev nD) : Vec Ideal S1x16 .f32 := V c main_v43

abbrev warr1 (c : Dev nD) : Vec Ideal S16x64 .f32 := V c main_arg4

abbrev hblk1 (c : Dev nD) (t : Fin cfg1.N) : Vec Ideal S2000x16 .f32 := iblk1 V c 0 t

abbrev bblk1 (c : Dev nD) (t : Fin cfg1.N) : Vec Ideal S1x16 .f32 := iblk1 V c 1 t

abbrev wblk1 (c : Dev nD) (t : Fin cfg1.N) : Vec Ideal S16x64 .f32 := iblk1 V c 2 t

def lin1 (a0 : Vec Ideal S100000x16 .f32) (a1 : Vec Ideal S1x16 .f32) (a2 : Vec Ideal S16x64 .f32) :
    Vec Ideal S100000x64 .f32 :=
  Gcn.arr2 (Gcn.mm (fun r j => max (Gcn.fn2 a0 r j + a1 (ix2 (0 : Fin 1) j)) 0) (Gcn.fn2 a2))

theorem off1_zero : (![0, 0] : Fin 2 → Nat) = fun _ => 0 := funext (by decide)

theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem hblk1_apply (c : Dev nD) (t : Fin cfg1.N) (p : Fin 2000) (q : Fin 16) (r : Fin 100000)
    (hr : r.val = t.val * 2000 + p.val) : hblk1 V c t (ix2 p q) = harr1 V c (ix2 r q) := by
  obtain ⟨e0, e1, -, -, -, -, -, -⟩ := idx_facts1 t
  show V c main_v42 (((cfg1.win 0).blk t).view.emb (ix2 p q)) = V c main_v42 (ix2 r q)
  refine congrArg (V c main_v42) ?_
  funext a; apply Fin.ext
  match a with
  | ⟨0, _⟩ => show win1_0.index t (0 : Fin 2) * 2000 + 1 * p.val = r.val; omega
  | ⟨1, _⟩ => show win1_0.index t (1 : Fin 2) * 16 + 1 * q.val = q.val; omega

theorem bblk1_apply (c : Dev nD) (t : Fin cfg1.N) (z : Fin 1) (q : Fin 16) :
    bblk1 V c t (ix2 z q) = barr1 V c (ix2 z q) := by
  obtain ⟨-, -, e2, e3, -, -, -, -⟩ := idx_facts1 t
  show V c main_v43 (((cfg1.win 1).blk t).view.emb (ix2 z q)) = V c main_v43 (ix2 z q)
  refine congrArg (V c main_v43) ?_
  funext a; apply Fin.ext
  match a with
  | ⟨0, _⟩ => show win1_1.index t (0 : Fin 2) * 1 + 1 * z.val = z.val; omega
  | ⟨1, _⟩ => show win1_1.index t (1 : Fin 2) * 16 + 1 * q.val = q.val; omega

theorem wblk1_apply (c : Dev nD) (t : Fin cfg1.N) (q : Fin 16) (j : Fin 64) :
    wblk1 V c t (ix2 q j) = warr1 V c (ix2 q j) := by
  obtain ⟨-, -, -, -, e4, e5, -, -⟩ := idx_facts1 t
  show V c main_arg4 (((cfg1.win 2).blk t).view.emb (ix2 q j)) = V c main_arg4 (ix2 q j)
  refine congrArg (V c main_arg4) ?_
  funext a; apply Fin.ext
  match a with
  | ⟨0, _⟩ => show win1_2.index t (0 : Fin 2) * 16 + 1 * q.val = q.val; omega
  | ⟨1, _⟩ => show win1_2.index t (1 : Fin 2) * 64 + 1 * j.val = j.val; omega

theorem pay1_entry (hb : Vec Ideal S2000x16 .f32) (bb : Vec Ideal S1x16 .f32) (wb : Vec Ideal S16x64 .f32)
    (a0 : Vec Ideal S100000x16 .f32) (a1 : Vec Ideal S1x16 .f32) (a2 : Vec Ideal S16x64 .f32)
    (p : Fin 2000) (j : Fin 64) (r : Fin 100000)
    (hx : ∀ q : Fin 16, hb (ix2 p q) = a0 (ix2 r q))
    (hbias : ∀ q : Fin 16, bb (ix2 (0 : Fin 1) q) = a1 (ix2 (0 : Fin 1) q))
    (hw : ∀ q : Fin 16, wb (ix2 q j) = a2 (ix2 q j)) :
    k1_pay1 (F := Ideal) hb bb wb (ix2 p j)
      = Gcn.mm (fun r j => max (Gcn.fn2 a0 r j + a1 (ix2 (0 : Fin 1) j)) 0) (Gcn.fn2 a2) r j := by
  refine (Pay.pay1_apply hb bb wb p j).trans ?_
  refine Finset.sum_congr rfl fun q _ => ?_
  rw [hx q, hbias q, hw q]
  rfl

theorem flushed1_eq (c : Dev nD) (t : Fin cfg1.N) :
    (dat1 (F := Ideal) V c).flushed 3 t
      = ((cfg1.win 3).blk t).view.read (Elt Ideal) (lin1 (harr1 V c) (barr1 V c) (warr1 V c)) := by
  show (cfg1.win 3).cut (grid1.coords t) ((dat1 (F := Ideal) V c).after 3 t) = _
  rw [after1_3]
  unfold out1_3
  rw [View.canon_unit_zero off1_zero]
  obtain ⟨-, -, -, -, -, -, e6, e7⟩ := idx_facts1 t
  have ht : t.val < 50 := by have hN : cfg1.N = 50 := N_1; have := t.isLt; omega
  funext y
  show k1_pay1 (F := Ideal) (hblk1 V c t) (bblk1 V c t) (wblk1 V c t) y
      = lin1 (harr1 V c) (barr1 V c) (warr1 V c) (((cfg1.win 3).blk t).view.emb y)
  have hy0 : (y 0).val < 2000 := idx2_lt0 y
  have hy1 : (y 1).val < 64 := idx2_lt1 y
  have hemb : ((cfg1.win 3).blk t).view.emb y = ix2 (⟨t.val * 2000 + (y 0).val, by omega⟩ : Fin 100000) (y 1) := by
    funext a; apply Fin.ext
    match a with
    | ⟨0, _⟩ => show win1_3.index t (0 : Fin 2) * 2000 + 1 * (y 0).val = t.val * 2000 + (y 0).val; omega
    | ⟨1, _⟩ => show win1_3.index t (1 : Fin 2) * 64 + 1 * (y 1).val = (y 1).val; omega
  rw [hemb]
  refine (congrArg (k1_pay1 (F := Ideal) (hblk1 V c t) (bblk1 V c t) (wblk1 V c t)) (eq_ix2 y)).trans ?_
  exact pay1_entry (hblk1 V c t) (bblk1 V c t) (wblk1 V c t) (harr1 V c) (barr1 V c) (warr1 V c) (y 0) (y 1)
    ⟨t.val * 2000 + (y 0).val, by omega⟩
    (fun q => hblk1_apply V c t (y 0) q _ rfl) (fun q => bblk1_apply V c t 0 q) (fun q => wblk1_apply V c t q (y 1))

theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v44).slice (win1_3.rect t)).set ↔ _
  rw [View.set_slice_whole, Rect.mem_set_unit]
  exact Iff.rfl

theorem covered1 (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 50 := N_1
  have hlt : (i 0).val / 2000 < cfg1.N := by omega
  obtain ⟨-, -, -, -, -, -, e6, e7⟩ := idx_facts1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    have e6' : win1_3.index ⟨(i 0).val / 2000, hlt⟩ (0 : Fin 2) = (i 0).val / 2000 := e6
    omega
  | ⟨1, _⟩ =>
    show win1_3.index ⟨(i 0).val / 2000, hlt⟩ (1 : Fin 2) * 64 ≤ (i 1).val ∧ (i 1).val < win1_3.index ⟨(i 0).val / 2000, hlt⟩ (1 : Fin 2) * 64 + 64
    omega

theorem arr1_eq (c : Dev nD) :
    (dat1 (F := Ideal) V c).arrAt 3 cfg1.N = lin1 (harr1 V c) (barr1 V c) (warr1 V c) :=
  (dat1 (F := Ideal) V c).arrAt_eq_of_cover 3 (lin1 (harr1 V c) (barr1 V c) (warr1 V c))
    (fun t _ => flushed1_eq V c t) covered1

theorem final1 (c : Dev nD) :
    Gcn.fn2 ((dat1 (F := Ideal) V c).arrAt 3 cfg1.N)
      = Gcn.mm (fun r j => max (Gcn.fn2 (V c main_v42) r j + (V c main_v43) (ix2 (0 : Fin 1) j)) 0) (Gcn.fn2 (V c main_arg4)) :=
  (congrArg Gcn.fn2 (arr1_eq V c)).trans (Gcn.fn2_arr2 _)

end Cert.KernelIdeal.Val

end
-- ==== Proof.LsmRows.lean ====
import proofs.«405293_j84817014161572_1_alg».proof.Proof.Gen.KernelIdeal.Skeleton
import proofs.«405293_j84817014161572_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

theorem ofBits_neg_inf_f32 : Ideal.ofBits .f32 0xFF800000#32 = ⊥ := by simp [Ideal.ofBits, Ideal.ieee]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_lane (p : Fin 2000) (k : Fin 64) : (reduces_S2000x64_S2000).lift (ix1 p) k = ix2 p k := by
  funext a
  match a with
  | ⟨0, _⟩ => rfl
  | ⟨1, _⟩ => rfl

theorem rowMax_apply (y : FVec Ideal S2000x64 .f32) (hφ : FKind.Formats .f32)
    (hacc : (0xFF800000#32 : BitVec 32) = 0xFF800000#32) (p : Fin 2000) :
    multiReduction .maximumf [1] S2000 y 0xFF800000#32 reduces_S2000x64_S2000 hφ hacc (ix1 p)
      = Gcn.rowMax (fun q : Fin 64 => y (ix2 p q)) := by
  refine (Ideal.multiReduction_maximumf_single y _ reduces_S2000x64_S2000 hφ hacc (ix1 p)).trans ?_
  show (Finset.univ : Finset (Fin 64)).fold max (Ideal.ofBits .f32 0xFF800000#32)
    (y ∘ (reduces_S2000x64_S2000).lift (ix1 p)) = _
  rw [ofBits_neg_inf_f32]
  have hf : (y ∘ (reduces_S2000x64_S2000).lift (ix1 p)) = fun q : Fin 64 => y (ix2 p q) :=
    funext fun k => congrArg y (lift_lane p k)
  rw [hf]
  rfl

theorem rowSum_apply (y : FVec Ideal S2000x64 .f32) (hφ : FKind.Formats .f32)
    (hacc : (0x00000000#32 : BitVec 32) = 0x00000000#32) (p : Fin 2000) :
    multiReduction .add [1] S2000 y 0x00000000#32 reduces_S2000x64_S2000 hφ hacc (ix1 p)
      = ∑ q : Fin 64, y (ix2 p q) := by
  refine (Ideal.multiReduction_add_single y _ reduces_S2000x64_S2000 hφ hacc (ix1 p)).trans ?_
  exact Finset.sum_congr rfl fun k _ => congrArg y (lift_lane p k)

def lsmTail (y : FVec Ideal S2000x64 .f32) : FVec Ideal S2000x64 .f32 :=
  have v9 : FVec Ideal S2000 .f32 := multiReduction .maximumf [1] S2000 y 0xFF800000#32 reduces_S2000x64_S2000 (.inl rfl) rfl
  have v10 : FVec Ideal S2000x1 .f32 := shapeCast S2000x1 v9 shapeCasts_S2000_S2000x1
  have v11 : FVec Ideal S2000x64 .f32 := broadcastTo S2000x64 v10 broadcasts_S2000x1_S2000x64
  have v12 : FVec Ideal S2000x64 .f32 := subf y v11
  have v13 : FVec Ideal S2000x64 .f32 := exp v12
  have v14 : FVec Ideal S2000 .f32 := multiReduction .add [1] S2000 v13 0x00000000#32 reduces_S2000x64_S2000 (.inl rfl) rfl
  have v15 : FVec Ideal S2000x1 .f32 := shapeCast S2000x1 v14 shapeCasts_S2000_S2000x1
  have v16 : FVec Ideal S2000x1 .f32 := log v15
  have v17 : FVec Ideal S2000x1 .f32 := addf v16 v10
  have v18 : FVec Ideal S2000x64 .f32 := broadcastTo S2000x64 v17 broadcasts_S2000x1_S2000x64
  have v19 : FVec Ideal S2000x64 .f32 := subf y v18
  v19

theorem lsm_rows (y : FVec Ideal S2000x64 .f32) (p : Fin 2000) (j : Fin 64) :
    lsmTail y (ix2 p j) = Gcn.lsmK (fun q : Fin 64 => y (ix2 p q)) j := by
  unfold lsmTail
  simp only [subf_apply, addf_apply, log_apply, broadcastTo_a1_ab_apply, shapeCast_a_a1_apply]
  rw [rowSum_apply]
  simp only [exp_apply, subf_apply, broadcastTo_a1_ab_apply, shapeCast_a_a1_apply]
  rw [rowMax_apply]
  rfl

end Cert.KernelIdeal.Pay
-- ==== Proof.PayK2.lean ====
import proofs.«405293_j84817014161572_1_alg».proof.Proof.Gen.KernelIdeal.Skeleton
import proofs.«405293_j84817014161572_1_alg».proof.Proof.Spec
import proofs.«405293_j84817014161572_1_alg».proof.Proof.LsmRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

theorem lift_row (j : Fin 64) (k : Fin 2000) : (reduces_S2000x64_S64).lift (ix1 j) k = ix2 k j := by
  funext a
  match a with
  | ⟨0, _⟩ => rfl
  | ⟨1, _⟩ => rfl

theorem colSum_apply (y : FVec Ideal S2000x64 .f32) (hφ : FKind.Formats .f32)
    (hacc : (0x00000000#32 : BitVec 32) = 0x00000000#32) (j : Fin 64) :
    multiReduction .add [0] S64 y 0x00000000#32 reduces_S2000x64_S64 hφ hacc (ix1 j)
      = ∑ p : Fin 2000, y (ix2 p j) := by
  refine (Ideal.multiReduction_add_single y _ reduces_S2000x64_S64 hφ hacc (ix1 j)).trans ?_
  exact Finset.sum_congr rfl fun k _ => congrArg y (lift_row j k)

theorem pay3_apply (j : Fin 64) : k2_pay3 (F := Ideal) (ix2 (0 : Fin 1) j) = 0 := by
  unfold k2_pay3
  simp only [shapeCast_self, broadcast_apply]
  exact Ideal.ofBits_zero_f32

theorem pay4_apply (j : Fin 64) : k2_pay4 (F := Ideal) (ix2 (0 : Fin 1) j) = 0 := by
  unfold k2_pay4
  simp only [shapeCast_self, broadcast_apply]
  exact Ideal.ofBits_zero_f32

theorem pay1_id (v : FVec Ideal S1x64 .f32) : k2_pay1 (F := Ideal) v = v := by
  unfold k2_pay1
  exact shapeCast_self v _

theorem pay2_apply (o : FVec Ideal S2000x64 .f32) (s : Vec Ideal S1x64 .f32) (j : Fin 64) :
    k2_pay2 (F := Ideal) o s (ix2 (0 : Fin 1) j)
      = s (ix2 (0 : Fin 1) j) + ∑ p : Fin 2000, o (ix2 p j) * o (ix2 p j) := by
  unfold k2_pay2
  simp only [shapeCast_self, addf_apply, shapeCast_a_1a_apply]
  rw [colSum_apply]
  simp only [mulf_apply]

theorem pay6_apply (zb : Vec Ideal S2000x64 .f32) (b2 : Vec Ideal S1x64 .f32) (wr : Vec Ideal S2000x1 .f32)
    (mw : Vec Ideal S64x64 .f32) (mb : Vec Ideal S1x64 .f32) (s : Vec Ideal S1x64 .f32) (j : Fin 64) :
    k2_pay6 (F := Ideal) zb b2 wr mw mb s (ix2 (0 : Fin 1) j)
      = s (ix2 (0 : Fin 1) j) + ∑ p : Fin 2000, k2_pay5 (F := Ideal) zb b2 wr mw mb (ix2 p j) := by
  unfold k2_pay6
  simp only [addf_apply, shapeCast_a_1a_apply]
  rw [colSum_apply]

theorem lhs_mm_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

theorem lhs_mm_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q

theorem rhs_mm_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q

theorem rhs_mm_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem mm_apply (a : FVec Ideal S2000x64 .bf16) (b : FVec Ideal S64x64 .bf16) (p : Fin 2000) (j : Fin 64) :
    matmul dot_S2000x64_S64x64_S2000x64_1_0_0_1_n_n none a b (constant (F := Ideal) S2000x64 .f32 0x00000000#32) (ix2 p j)
      = ∑ q : Fin 64, a (ix2 p q) * b (ix2 q j) := by
  refine (Ideal.matmul_constant_zero_apply dot_S2000x64_S64x64_S2000x64_1_0_0_1_n_n none a b (ix2 p j)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p j) ((contrEquiv1 dot_S2000x64_S64x64_S2000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S2000x64_S64x64_S2000x64_1_0_0_1_n_n.rhsIdx (ix2 p j) ((contrEquiv1 dot_S2000x64_S64x64_S2000x64_1_0_0_1_n_n 64 rfl rfl).symm k) = ix2 k j := funext fun a => Fin.ext (by
    match a with
    | ⟨0, _⟩ => exact (rhs_mm_0 _ _).trans hk
    | ⟨1, _⟩ => exact rhs_mm_1 _ _)
  rw [el, er]

def logits8 (zb : Vec Ideal S2000x64 .f32) (b2 : Vec Ideal S1x64 .f32) : FVec Ideal S2000x64 .f32 :=
  addf (shapeCast S2000x64 zb shapeCasts_S2000x64_S2000x64)
    (broadcastTo S2000x64 (shapeCast S1x64 b2 shapeCasts_S1x64_S1x64) broadcasts_S1x64_S2000x64)

theorem logits8_apply (zb : Vec Ideal S2000x64 .f32) (b2 : Vec Ideal S1x64 .f32) (p : Fin 2000) (q : Fin 64) :
    logits8 zb b2 (ix2 p q) = zb (ix2 p q) + b2 (ix2 (0 : Fin 1) q) := by
  unfold logits8
  simp only [addf_apply, shapeCast_self, broadcastTo_1b_ab_apply]

theorem pay5_eq (zb : Vec Ideal S2000x64 .f32) (b2 : Vec Ideal S1x64 .f32) (wr : Vec Ideal S2000x1 .f32)
    (mw : Vec Ideal S64x64 .f32) (mb : Vec Ideal S1x64 .f32) :
    k2_pay5 (F := Ideal) zb b2 wr mw mb
      = addf (matmul dot_S2000x64_S64x64_S2000x64_1_0_0_1_n_n none
          (truncf .bf16 (mulf (broadcastTo S2000x64 (exp wr) broadcasts_S2000x1_S2000x64) (lsmTail (logits8 zb b2))) bitsLt_bf16_f32)
          (truncf .bf16 mw bitsLt_bf16_f32) (constant (F := Ideal) S2000x64 .f32 0x00000000#32))
        (broadcastTo S2000x64 (shapeCast S1x64 mb shapeCasts_S1x64_S1x64) broadcasts_S1x64_S2000x64) := rfl

theorem pay5_apply (zb : Vec Ideal S2000x64 .f32) (b2 : Vec Ideal S1x64 .f32) (wr : Vec Ideal S2000x1 .f32)
    (mw : Vec Ideal S64x64 .f32) (mb : Vec Ideal S1x64 .f32) (p : Fin 2000) (j : Fin 64) :
    k2_pay5 (F := Ideal) zb b2 wr mw mb (ix2 p j)
      = (∑ q : Fin 64, (Ideal.exp (wr (ix2 p (0 : Fin 1)))
            * Gcn.lsmK (fun q' : Fin 64 => zb (ix2 p q') + b2 (ix2 (0 : Fin 1) q')) q) * mw (ix2 q j))
          + mb (ix2 (0 : Fin 1) j) := by
  rw [pay5_eq]
  simp only [addf_apply, broadcastTo_1b_ab_apply, shapeCast_self]
  rw [mm_apply]
  simp only [truncf_apply, mulf_apply, broadcastTo_a1_ab_apply, exp_apply, lsm_rows, logits8_apply]

end Cert.KernelIdeal.Pay
-- ==== Proof.Blk2.lean ====
import proofs.«405293_j84817014161572_1_alg».proof.Proof.Reg2
import proofs.«405293_j84817014161572_1_alg».proof.Proof.Spec
import proofs.«405293_j84817014161572_1_alg».proof.Proof.PayK2
import Idealize.ShloMosaic.Lib.Pipeline.Value
import Idealize.ShloMosaic.Lib.ValueIdx
import Mathlib.Logic.Equiv.Fin.Basic
import Mathlib.Algebra.BigOperators.Fin

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

abbrev zarr2 (c : Dev nD) : Vec Ideal S100000x64 .f32 := V c main_v57

abbrev b2arr2 (c : Dev nD) : Vec Ideal S1x64 .f32 := V c main_v58

abbrev wrarr2 (c : Dev nD) : Vec Ideal S100000x1 .f32 := V c main_arg10

abbrev mwarr2 (c : Dev nD) : Vec Ideal S64x64 .f32 := V c main_arg6

abbrev mbarr2 (c : Dev nD) : Vec Ideal S1x64 .f32 := V c main_v59

abbrev zblk2 (c : Dev nD) (t : Fin cfg2.N) : Vec Ideal S2000x64 .f32 := iblk2 V c 0 t
abbrev b2blk2 (c : Dev nD) (t : Fin cfg2.N) : Vec Ideal S1x64 .f32 := iblk2 V c 1 t
abbrev wrblk2 (c : Dev nD) (t : Fin cfg2.N) : Vec Ideal S2000x1 .f32 := iblk2 V c 2 t
abbrev mwblk2 (c : Dev nD) (t : Fin cfg2.N) : Vec Ideal S64x64 .f32 := iblk2 V c 3 t
abbrev mbblk2 (c : Dev nD) (t : Fin cfg2.N) : Vec Ideal S1x64 .f32 := iblk2 V c 4 t

def denseM2 (c : Dev nD) : Gcn.Mat Gcn.NN 64 :=
  Gcn.dense (Gcn.fn2 (mwarr2 V c)) (fun j => mbarr2 V c (ix2 (0 : Fin 1) j)) (Gcn.fnCol (wrarr2 V c))
    (fun r => Gcn.lsmK (fun q : Fin 64 => Gcn.fn2 (zarr2 V c) r q + b2arr2 V c (ix2 (0 : Fin 1) q)))

theorem N2_eq : cfg2.N = 50 := N_2

theorem idx_in2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem idx_out2 : ∀ t : Fin cfg2.N,
      win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem zblk2_apply (c : Dev nD) (t : Fin cfg2.N) (p : Fin 2000) (q : Fin 64) (r : Fin 100000)
    (hr : r.val = t.val * 2000 + p.val) : zblk2 V c t (ix2 p q) = zarr2 V c (ix2 r q) := by
  obtain ⟨e0, e1, -⟩ := idx_in2 t
  show V c main_v57 (((cfg2.win 0).blk t).view.emb (ix2 p q)) = V c main_v57 (ix2 r q)
  refine congrArg (V c main_v57) ?_
  funext a; apply Fin.ext
  match a with
  | ⟨0, _⟩ => show win2_0.index t (0 : Fin 2) * 2000 + 1 * p.val = r.val; omega
  | ⟨1, _⟩ => show win2_0.index t (1 : Fin 2) * 64 + 1 * q.val = q.val; omega

theorem b2blk2_apply (c : Dev nD) (t : Fin cfg2.N) (q : Fin 64) :
    b2blk2 V c t (ix2 (0 : Fin 1) q) = b2arr2 V c (ix2 (0 : Fin 1) q) := by
  obtain ⟨-, -, e2, e3, -⟩ := idx_in2 t
  show V c main_v58 (((cfg2.win 1).blk t).view.emb (ix2 (0 : Fin 1) q)) = V c main_v58 (ix2 (0 : Fin 1) q)
  refine congrArg (V c main_v58) ?_
  funext a; apply Fin.ext
  match a with
  | ⟨0, _⟩ => show win2_1.index t (0 : Fin 2) * 1 + 1 * (0 : Fin 1).val = (0 : Fin 1).val; omega
  | ⟨1, _⟩ => show win2_1.index t (1 : Fin 2) * 64 + 1 * q.val = q.val; omega

theorem wrblk2_apply (c : Dev nD) (t : Fin cfg2.N) (p : Fin 2000) (r : Fin 100000)
    (hr : r.val = t.val * 2000 + p.val) : wrblk2 V c t (ix2 p (0 : Fin 1)) = wrarr2 V c (ix2 r (0 : Fin 1)) := by
  obtain ⟨-, -, -, -, e4, e5, -⟩ := idx_in2 t
  show V c main_arg10 (((cfg2.win 2).blk t).view.emb (ix2 p (0 : Fin 1))) = V c main_arg10 (ix2 r (0 : Fin 1))
  refine congrArg (V c main_arg10) ?_
  funext a; apply Fin.ext
  match a with
  | ⟨0, _⟩ => show win2_2.index t (0 : Fin 2) * 2000 + 1 * p.val = r.val; omega
  | ⟨1, _⟩ => show win2_2.index t (1 : Fin 2) * 1 + 1 * (0 : Fin 1).val = (0 : Fin 1).val; omega

theorem mwblk2_apply (c : Dev nD) (t : Fin cfg2.N) (q : Fin 64) (j : Fin 64) :
    mwblk2 V c t (ix2 q j) = mwarr2 V c (ix2 q j) := by
  obtain ⟨-, -, -, -, -, -, e6, e7, -⟩ := idx_in2 t
  show V c main_arg6 (((cfg2.win 3).blk t).view.emb (ix2 q j)) = V c main_arg6 (ix2 q j)
  refine congrArg (V c main_arg6) ?_
  funext a; apply Fin.ext
  match a with
  | ⟨0, _⟩ => show win2_3.index t (0 : Fin 2) * 64 + 1 * q.val = q.val; omega
  | ⟨1, _⟩ => show win2_3.index t (1 : Fin 2) * 64 + 1 * j.val = j.val; omega

theorem mbblk2_apply (c : Dev nD) (t : Fin cfg2.N) (j : Fin 64) :
    mbblk2 V c t (ix2 (0 : Fin 1) j) = mbarr2 V c (ix2 (0 : Fin 1) j) := by
  obtain ⟨-, -, -, -, -, -, -, -, e8, e9⟩ := idx_in2 t
  show V c main_v59 (((cfg2.win 4).blk t).view.emb (ix2 (0 : Fin 1) j)) = V c main_v59 (ix2 (0 : Fin 1) j)
  refine congrArg (V c main_v59) ?_
  funext a; apply Fin.ext
  match a with
  | ⟨0, _⟩ => show win2_4.index t (0 : Fin 2) * 1 + 1 * (0 : Fin 1).val = (0 : Fin 1).val; omega
  | ⟨1, _⟩ => show win2_4.index t (1 : Fin 2) * 64 + 1 * j.val = j.val; omega

theorem pay5_entry (zb : Vec Ideal S2000x64 .f32) (b2 : Vec Ideal S1x64 .f32) (wr : Vec Ideal S2000x1 .f32)
    (mw : Vec Ideal S64x64 .f32) (mb : Vec Ideal S1x64 .f32)
    (z : Vec Ideal S100000x64 .f32) (b2a : Vec Ideal S1x64 .f32) (wra : Vec Ideal S100000x1 .f32)
    (mwa : Vec Ideal S64x64 .f32) (mba : Vec Ideal S1x64 .f32) (p : Fin 2000) (j : Fin 64) (r : Fin 100000)
    (hz : ∀ q : Fin 64, zb (ix2 p q) = z (ix2 r q)) (hb : ∀ q : Fin 64, b2 (ix2 (0 : Fin 1) q) = b2a (ix2 (0 : Fin 1) q))
    (hwr : wr (ix2 p (0 : Fin 1)) = wra (ix2 r (0 : Fin 1))) (hmw : ∀ q : Fin 64, mw (ix2 q j) = mwa (ix2 q j))
    (hmb : mb (ix2 (0 : Fin 1) j) = mba (ix2 (0 : Fin 1) j)) :
    k2_pay5 (F := Ideal) zb b2 wr mw mb (ix2 p j)
      = Gcn.dense (Gcn.fn2 mwa) (fun j => mba (ix2 (0 : Fin 1) j)) (Gcn.fnCol wra)
          (fun r => Gcn.lsmK (fun q : Fin 64 => Gcn.fn2 z r q + b2a (ix2 (0 : Fin 1) q))) r j := by
  refine (Pay.pay5_apply zb b2 wr mw mb p j).trans ?_
  have hrow : (fun q' : Fin 64 => zb (ix2 p q') + b2 (ix2 (0 : Fin 1) q'))
      = fun q : Fin 64 => Gcn.fn2 z r q + b2a (ix2 (0 : Fin 1) q) :=
    funext fun q => by rw [hz q, hb q]; rfl
  rw [hrow, hwr, hmb]
  refine congrArg (· + mba (ix2 (0 : Fin 1) j)) ?_
  exact Finset.sum_congr rfl fun q _ => by rw [hmw q]; rfl

theorem mlp2_entry (c : Dev nD) (t : Fin cfg2.N) (p : Fin 2000) (j : Fin 64) (r : Fin 100000)
    (hr : r.val = t.val * 2000 + p.val) : mlp2 (F := Ideal) V c t (ix2 p j) = denseM2 V c r j :=
  pay5_entry (zblk2 V c t) (b2blk2 V c t) (wrblk2 V c t) (mwblk2 V c t) (mbblk2 V c t)
    (zarr2 V c) (b2arr2 V c) (wrarr2 V c) (mwarr2 V c) (mbarr2 V c) p j r
    (fun q => zblk2_apply V c t p q r hr) (fun q => b2blk2_apply V c t q) (wrblk2_apply V c t p r hr)
    (fun q => mwblk2_apply V c t q j) (mbblk2_apply V c t j)

theorem flushed2_5_eq (c : Dev nD) (t : Fin cfg2.N) :
    (dat2 (F := Ideal) V c).flushed 5 t = ((cfg2.win 5).blk t).view.read (Elt Ideal) (Gcn.arr2 (denseM2 V c)) := by
  show (cfg2.win 5).cut (grid2.coords t) ((dat2 (F := Ideal) V c).after 5 t) = _
  rw [after2_5]
  obtain ⟨e0, e1, -⟩ := idx_out2 t
  have ht : t.val < 50 := by have hN := N2_eq; have := t.isLt; omega
  funext y
  show mlp2 (F := Ideal) V c t y = Gcn.arr2 (denseM2 V c) (((cfg2.win 5).blk t).view.emb y)
  have hy0 : (y 0).val < 2000 := idx2_lt0 y
  have hy1 : (y 1).val < 64 := idx2_lt1 y
  have hemb : ((cfg2.win 5).blk t).view.emb y = ix2 (⟨t.val * 2000 + (y 0).val, by omega⟩ : Fin 100000) (y 1) := by
    funext a; apply Fin.ext
    match a with
    | ⟨0, _⟩ => show win2_5.index t (0 : Fin 2) * 2000 + 1 * (y 0).val = t.val * 2000 + (y 0).val; omega
    | ⟨1, _⟩ => show win2_5.index t (1 : Fin 2) * 64 + 1 * (y 1).val = (y 1).val; omega
  rw [hemb]
  refine (congrArg (mlp2 (F := Ideal) V c t) (eq_ix2 y)).trans ?_
  exact mlp2_entry V c t (y 0) (y 1) ⟨t.val * 2000 + (y 0).val, by omega⟩ rfl

theorem mem_blk2_5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v60_0).slice (win2_5.rect t)).set ↔ _
  rw [View.set_slice_whole, Rect.mem_set_unit]
  exact Iff.rfl

theorem covered2_5 (i : S100000x64.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  have hN := N2_eq
  have hlt : (i 0).val / 2000 < cfg2.N := by omega
  obtain ⟨e0, e1, -⟩ := idx_out2 ⟨(i 0).val / 2000, hlt⟩
  refine ⟨⟨(i 0).val / 2000, hlt⟩, flush2_5 _, ?_⟩
  rw [mem_blk2_5]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    have e0' : win2_5.index ⟨(i 0).val / 2000, hlt⟩ (0 : Fin 2) = (i 0).val / 2000 := e0
    omega
  | ⟨1, _⟩ =>
    show win2_5.index ⟨(i 0).val / 2000, hlt⟩ (1 : Fin 2) * 64 ≤ (i 1).val ∧ (i 1).val < win2_5.index ⟨(i 0).val / 2000, hlt⟩ (1 : Fin 2) * 64 + 64
    omega

theorem arr2_5_eq (c : Dev nD) : (dat2 (F := Ideal) V c).arrAt 5 cfg2.N = Gcn.arr2 (denseM2 V c) :=
  (dat2 (F := Ideal) V c).arrAt_eq_of_cover 5 (Gcn.arr2 (denseM2 V c)) (fun t _ => flushed2_5_eq V c t) covered2_5

theorem final2_5 (c : Dev nD) :
    Gcn.fn2 ((dat2 (F := Ideal) V c).arrAt 5 cfg2.N)
      = Gcn.dense (Gcn.fn2 (V c main_arg6)) (fun j => (V c main_v59) (ix2 (0 : Fin 1) j)) (Gcn.fnCol (V c main_arg10))
          (fun r => Gcn.lsmK (fun q : Fin 64 => Gcn.fn2 (V c main_v57) r q + (V c main_v58) (ix2 (0 : Fin 1) q))) :=
  (congrArg Gcn.fn2 (arr2_5_eq V c)).trans (Gcn.fn2_arr2 _)

def row2 (t : Fin 50) (p : Fin 2000) : Fin 100000 := ⟨t.val * 2000 + p.val, by have := t.isLt; have := p.isLt; omega⟩

theorem sum_rows2 (f : Fin 100000 → EReal) :
    ∑ r : Fin 100000, f r = ∑ t : Fin 50, ∑ p : Fin 2000, f (row2 t p) := by
  have e := Fintype.sum_equiv (finProdFinEquiv (m := 50) (n := 2000))
    (fun x : Fin 50 × Fin 2000 => f (finProdFinEquiv x)) f (fun _ => rfl)
  rw [← e, Fintype.sum_prod_type]
  refine Finset.sum_congr rfl fun t _ => Finset.sum_congr rfl fun p _ => congrArg f (Fin.ext ?_)
  show p.val + 2000 * t.val = t.val * 2000 + p.val
  omega

theorem acc_eq_sum2 (N : ℕ) (a : (n : ℕ) → n < N → EReal) (b : ℕ → EReal)
    (h0 : ∀ h, a 0 h = 0 + b 0)
    (hs : ∀ n (h : n + 1 < N), a (n + 1) h = a n (Nat.lt_of_succ_lt h) + b (n + 1)) :
    ∀ n (h : n < N), a n h = ∑ t ∈ Finset.range (n + 1), b t
  | 0, h => by rw [h0, zero_add, Finset.sum_range_one]
  | n + 1, h => by rw [hs n h, acc_eq_sum2 N a b h0 hs n _, Finset.sum_range_succ _ (n + 1)]

def bsum2 (c : Dev nD) (j : Fin 64) (t : ℕ) : EReal :=
  if h : t < cfg2.N then ∑ p : Fin 2000, mlp2 (F := Ideal) V c ⟨t, h⟩ (ix2 p j) else 0

def bsq2 (c : Dev nD) (j : Fin 64) (t : ℕ) : EReal :=
  if h : t < cfg2.N then ∑ p : Fin 2000, mlp2 (F := Ideal) V c ⟨t, h⟩ (ix2 p j) * mlp2 (F := Ideal) V c ⟨t, h⟩ (ix2 p j) else 0

theorem acc1_zero2 (c : Dev nD) (j : Fin 64) (h : 0 < cfg2.N) :
    (accAt2 (F := Ideal) V c 0 h).1 (ix2 (0 : Fin 1) j) = 0 + bsum2 V c j 0 := by
  rw [accAt2_zero]
  show k2_pay1 (F := Ideal) (k2_pay6 (zblk2 V c ⟨0, h⟩) (b2blk2 V c ⟨0, h⟩) (wrblk2 V c ⟨0, h⟩) (mwblk2 V c ⟨0, h⟩) (mbblk2 V c ⟨0, h⟩) (k2_pay3 (F := Ideal))) (ix2 (0 : Fin 1) j) = _
  rw [Pay.pay1_id]
  refine (Pay.pay6_apply _ _ _ _ _ _ j).trans ?_
  rw [Pay.pay3_apply]
  unfold bsum2 mlp2
  rw [dif_pos h]

theorem acc1_succ2 (c : Dev nD) (j : Fin 64) (n : ℕ) (h : n + 1 < cfg2.N) :
    (accAt2 (F := Ideal) V c (n + 1) h).1 (ix2 (0 : Fin 1) j)
      = (accAt2 (F := Ideal) V c n (Nat.lt_of_succ_lt h)).1 (ix2 (0 : Fin 1) j) + bsum2 V c j (n + 1) := by
  rw [accAt2_succ]
  show k2_pay1 (F := Ideal) (k2_pay6 (zblk2 V c ⟨n + 1, h⟩) (b2blk2 V c ⟨n + 1, h⟩) (wrblk2 V c ⟨n + 1, h⟩) (mwblk2 V c ⟨n + 1, h⟩) (mbblk2 V c ⟨n + 1, h⟩)
      (accAt2 (F := Ideal) V c n (Nat.lt_of_succ_lt h)).1) (ix2 (0 : Fin 1) j) = _
  rw [Pay.pay1_id]
  refine (Pay.pay6_apply _ _ _ _ _ _ j).trans ?_
  unfold bsum2 mlp2
  rw [dif_pos h]

theorem acc2_zero2 (c : Dev nD) (j : Fin 64) (h : 0 < cfg2.N) :
    (accAt2 (F := Ideal) V c 0 h).2 (ix2 (0 : Fin 1) j) = 0 + bsq2 V c j 0 := by
  rw [accAt2_zero]
  show k2_pay2 (F := Ideal) (mlp2 (F := Ideal) V c ⟨0, h⟩) (k2_pay4 (F := Ideal)) (ix2 (0 : Fin 1) j) = _
  refine (Pay.pay2_apply _ _ j).trans ?_
  rw [Pay.pay4_apply]
  unfold bsq2
  rw [dif_pos h]

theorem acc2_succ2 (c : Dev nD) (j : Fin 64) (n : ℕ) (h : n + 1 < cfg2.N) :
    (accAt2 (F := Ideal) V c (n + 1) h).2 (ix2 (0 : Fin 1) j)
      = (accAt2 (F := Ideal) V c n (Nat.lt_of_succ_lt h)).2 (ix2 (0 : Fin 1) j) + bsq2 V c j (n + 1) := by
  rw [accAt2_succ]
  show k2_pay2 (F := Ideal) (mlp2 (F := Ideal) V c ⟨n + 1, h⟩) (accAt2 (F := Ideal) V c n (Nat.lt_of_succ_lt h)).2 (ix2 (0 : Fin 1) j) = _
  refine (Pay.pay2_apply _ _ j).trans ?_
  unfold bsq2
  rw [dif_pos h]

theorem acc1_eq2 (c : Dev nD) (j : Fin 64) (n : ℕ) (h : n < cfg2.N) :
    (accAt2 (F := Ideal) V c n h).1 (ix2 (0 : Fin 1) j) = ∑ t ∈ Finset.range (n + 1), bsum2 V c j t :=
  acc_eq_sum2 cfg2.N (fun n h => (accAt2 (F := Ideal) V c n h).1 (ix2 (0 : Fin 1) j)) (bsum2 V c j)
    (acc1_zero2 V c j) (acc1_succ2 V c j) n h

theorem acc2_eq2 (c : Dev nD) (j : Fin 64) (n : ℕ) (h : n < cfg2.N) :
    (accAt2 (F := Ideal) V c n h).2 (ix2 (0 : Fin 1) j) = ∑ t ∈ Finset.range (n + 1), bsq2 V c j t :=
  acc_eq_sum2 cfg2.N (fun n h => (accAt2 (F := Ideal) V c n h).2 (ix2 (0 : Fin 1) j)) (bsq2 V c j)
    (acc2_zero2 V c j) (acc2_succ2 V c j) n h

theorem bsum2_eq (c : Dev nD) (j : Fin 64) (t : Fin 50) :
    bsum2 V c j t.val = ∑ p : Fin 2000, denseM2 V c (row2 t p) j := by
  have ht : t.val < cfg2.N := by rw [N2_eq]; exact t.isLt
  unfold bsum2; rw [dif_pos ht]
  exact Finset.sum_congr rfl fun p _ => mlp2_entry V c ⟨t.val, ht⟩ p j (row2 t p) rfl

theorem bsq2_eq (c : Dev nD) (j : Fin 64) (t : Fin 50) :
    bsq2 V c j t.val = ∑ p : Fin 2000, denseM2 V c (row2 t p) j * denseM2 V c (row2 t p) j := by
  have ht : t.val < cfg2.N := by rw [N2_eq]; exact t.isLt
  unfold bsq2; rw [dif_pos ht]
  exact Finset.sum_congr rfl fun p _ => by rw [mlp2_entry V c ⟨t.val, ht⟩ p j (row2 t p) rfl]

theorem last2 : 49 < cfg2.N := by rw [N2_eq]; decide

theorem acc1_last2 (c : Dev nD) (j : Fin 64) :
    (accAt2 (F := Ideal) V c 49 last2).1 (ix2 (0 : Fin 1) j) = ∑ r : Fin 100000, denseM2 V c r j := by
  rw [acc1_eq2 V c j 49 last2, sum_rows2 (fun r => denseM2 V c r j)]
  show ∑ t ∈ Finset.range 50, bsum2 V c j t = _
  rw [Finset.sum_range (fun t => bsum2 V c j t)]
  exact Finset.sum_congr rfl fun t _ => bsum2_eq V c j t

theorem acc2_last2 (c : Dev nD) (j : Fin 64) :
    (accAt2 (F := Ideal) V c 49 last2).2 (ix2 (0 : Fin 1) j) = ∑ r : Fin 100000, denseM2 V c r j * denseM2 V c r j := by
  rw [acc2_eq2 V c j 49 last2, sum_rows2 (fun r => denseM2 V c r j * denseM2 V c r j)]
  show ∑ t ∈ Finset.range 50, bsq2 V c j t = _
  rw [Finset.sum_range (fun t => bsq2 V c j t)]
  exact Finset.sum_congr rfl fun t _ => bsq2_eq V c j t

theorem accAt2_last (c : Dev nD) (n : ℕ) (h : n < cfg2.N) (e : n = 49) :
    accAt2 (F := Ideal) V c n h = accAt2 (F := Ideal) V c 49 last2 := by
  subst e; rfl

theorem flush_last2 (t : Fin cfg2.N) (h : t.val % 50 = 49) : t.val = 49 := by
  have hN := N2_eq; have := t.isLt; omega

theorem mem_blk2_6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v60_1).slice (win2_6.rect t)).set ↔ _
  rw [View.set_slice_whole, Rect.mem_set_unit]
  exact Iff.rfl
theorem mem_blk2_7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v60_2).slice (win2_7.rect t)).set ↔ _
  rw [View.set_slice_whole, Rect.mem_set_unit]
  exact Iff.rfl

theorem flushed2_6_eq (c : Dev nD) (t : Fin cfg2.N) (hf : (cfg2.win 6).flush t = true) :
    (dat2 (F := Ideal) V c).flushed 6 t = ((cfg2.win 6).blk t).view.read (Elt Ideal) (accAt2 (F := Ideal) V c 49 last2).1 := by
  have htv : t.val = 49 := flush_last2 t ((flush2_6 t).mp hf)
  obtain ⟨-, -, e2, e3, -⟩ := idx_out2 t
  show (cfg2.win 6).cut (grid2.coords t) ((dat2 (F := Ideal) V c).after 6 t) = _
  rw [after2_6]
  funext y
  show (accAt2 (F := Ideal) V c t.val t.isLt).1 y = (accAt2 (F := Ideal) V c 49 last2).1 (((cfg2.win 6).blk t).view.emb y)
  have hemb : ((cfg2.win 6).blk t).view.emb y = y := by
    funext a; apply Fin.ext
    match a with
    | ⟨0, _⟩ => show win2_6.index t (0 : Fin 2) * 1 + 1 * (y 0).val = (y 0).val; omega
    | ⟨1, _⟩ => show win2_6.index t (1 : Fin 2) * 64 + 1 * (y 1).val = (y 1).val; omega
  rw [hemb, accAt2_last V c t.val t.isLt htv]

theorem flushed2_7_eq (c : Dev nD) (t : Fin cfg2.N) (hf : (cfg2.win 7).flush t = true) :
    (dat2 (F := Ideal) V c).flushed 7 t = ((cfg2.win 7).blk t).view.read (Elt Ideal) (accAt2 (F := Ideal) V c 49 last2).2 := by
  have htv : t.val = 49 := flush_last2 t ((flush2_7 t).mp hf)
  obtain ⟨-, -, -, -, e4, e5⟩ := idx_out2 t
  show (cfg2.win 7).cut (grid2.coords t) ((dat2 (F := Ideal) V c).after 7 t) = _
  rw [after2_7]
  funext y
  show (accAt2 (F := Ideal) V c t.val t.isLt).2 y = (accAt2 (F := Ideal) V c 49 last2).2 (((cfg2.win 7).blk t).view.emb y)
  have hemb : ((cfg2.win 7).blk t).view.emb y = y := by
    funext a; apply Fin.ext
    match a with
    | ⟨0, _⟩ => show win2_7.index t (0 : Fin 2) * 1 + 1 * (y 0).val = (y 0).val; omega
    | ⟨1, _⟩ => show win2_7.index t (1 : Fin 2) * 64 + 1 * (y 1).val = (y 1).val; omega
  rw [hemb, accAt2_last V c t.val t.isLt htv]

theorem covered2_6 (i : S1x64.Idx) :
    ∃ t : Fin cfg2.N, (cfg2.win 6).flush t = true ∧ i ∈ ((cfg2.win 6).blk t).view.set := by
  have hi0 : (i 0).val < 1 := idx2_lt0 i
  have hi1 : (i 1).val < 64 := idx2_lt1 i
  obtain ⟨-, -, e2, e3, -⟩ := idx_out2 ⟨49, last2⟩
  refine ⟨⟨49, last2⟩, (flush2_6 _).mpr rfl, ?_⟩
  rw [mem_blk2_6]
  intro a
  match a with
  | ⟨0, _⟩ =>
    show win2_6.index ⟨49, last2⟩ (0 : Fin 2) * 1 ≤ (i 0).val ∧ (i 0).val < win2_6.index ⟨49, last2⟩ (0 : Fin 2) * 1 + 1
    omega
  | ⟨1, _⟩ =>
    show win2_6.index ⟨49, last2⟩ (1 : Fin 2) * 64 ≤ (i 1).val ∧ (i 1).val < win2_6.index ⟨49, last2⟩ (1 : Fin 2) * 64 + 64
    omega

theorem covered2_7 (i : S1x64.Idx) :
    ∃ t : Fin cfg2.N, (cfg2.win 7).flush t = true ∧ i ∈ ((cfg2.win 7).blk t).view.set := by
  have hi0 : (i 0).val < 1 := idx2_lt0 i
  have hi1 : (i 1).val < 64 := idx2_lt1 i
  obtain ⟨-, -, -, -, e4, e5⟩ := idx_out2 ⟨49, last2⟩
  refine ⟨⟨49, last2⟩, (flush2_7 _).mpr rfl, ?_⟩
  rw [mem_blk2_7]
  intro a
  match a with
  | ⟨0, _⟩ =>
    show win2_7.index ⟨49, last2⟩ (0 : Fin 2) * 1 ≤ (i 0).val ∧ (i 0).val < win2_7.index ⟨49, last2⟩ (0 : Fin 2) * 1 + 1
    omega
  | ⟨1, _⟩ =>
    show win2_7.index ⟨49, last2⟩ (1 : Fin 2) * 64 ≤ (i 1).val ∧ (i 1).val < win2_7.index ⟨49, last2⟩ (1 : Fin 2) * 64 + 64
    omega

theorem arr2_6_eq (c : Dev nD) : (dat2 (F := Ideal) V c).arrAt 6 cfg2.N = (accAt2 (F := Ideal) V c 49 last2).1 :=
  (dat2 (F := Ideal) V c).arrAt_eq_of_cover 6 (accAt2 (F := Ideal) V c 49 last2).1 (fun t hf => flushed2_6_eq V c t hf) covered2_6
theorem arr2_7_eq (c : Dev nD) : (dat2 (F := Ideal) V c).arrAt 7 cfg2.N = (accAt2 (F := Ideal) V c 49 last2).2 :=
  (dat2 (F := Ideal) V c).arrAt_eq_of_cover 7 (accAt2 (F := Ideal) V c 49 last2).2 (fun t hf => flushed2_7_eq V c t hf) covered2_7

theorem fn2_arr2_5 (c : Dev nD) : Gcn.fn2 ((dat2 (F := Ideal) V c).arrAt 5 cfg2.N) = denseM2 V c :=
  (congrArg Gcn.fn2 (arr2_5_eq V c)).trans (Gcn.fn2_arr2 _)

theorem final2_6 (c : Dev nD) (j : Fin 64) :
    ((dat2 (F := Ideal) V c).arrAt 6 cfg2.N) (ix2 (0 : Fin 1) j)
      = ∑ r : Fin Gcn.NN, Gcn.fn2 ((dat2 (F := Ideal) V c).arrAt 5 cfg2.N) r j := by
  rw [fn2_arr2_5]
  exact (congrFun (arr2_6_eq V c) (ix2 (0 : Fin 1) j)).trans (acc1_last2 V c j)

theorem final2_7 (c : Dev nD) (j : Fin 64) :
    ((dat2 (F := Ideal) V c).arrAt 7 cfg2.N) (ix2 (0 : Fin 1) j)
      = ∑ r : Fin Gcn.NN, Gcn.fn2 ((dat2 (F := Ideal) V c).arrAt 5 cfg2.N) r j * Gcn.fn2 ((dat2 (F := Ideal) V c).arrAt 5 cfg2.N) r j := by
  rw [fn2_arr2_5]
  exact (congrFun (arr2_7_eq V c) (ix2 (0 : Fin 1) j)).trans (acc2_last2 V c j)

end Cert.KernelIdeal.Val

end
-- ==== Proof.PayK3.lean ====
import proofs.«405293_j84817014161572_1_alg».proof.Proof.Gen.KernelIdeal.Skeleton
import proofs.«405293_j84817014161572_1_alg».proof.Proof.Spec
import proofs.«405293_j84817014161572_1_alg».proof.Proof.LsmRows
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

def bn3 (mo : Vec Ideal S2000x64 .f32) (vr mean g be : Vec Ideal S1x64 .f32) : FVec Ideal S2000x64 .f32 :=
  have v1 : FVec Ideal S2000x64 .f32 := shapeCast S2000x64 mo shapeCasts_S2000x64_S2000x64
  have v3 : FVec Ideal S1x64 .f32 := shapeCast S1x64 vr shapeCasts_S1x64_S1x64
  have cst : Ideal .f32 := Scalar.ofBits .f32 0x3727C5AC#32
  have v4 : FVec Ideal S1x64 .f32 := broadcast S1x64 cst
  have v5 : FVec Ideal S1x64 .f32 := addf v3 v4
  have v6 : FVec Ideal S1x64 .f32 := rsqrt v5
  have v8 : FVec Ideal S1x64 .f32 := shapeCast S1x64 mean shapeCasts_S1x64_S1x64
  have v9 : FVec Ideal S2000x64 .f32 := broadcastTo S2000x64 v8 broadcasts_S1x64_S2000x64
  have v10 : FVec Ideal S2000x64 .f32 := subf v1 v9
  have v11 : FVec Ideal S2000x64 .f32 := broadcastTo S2000x64 v6 broadcasts_S1x64_S2000x64
  have v12 : FVec Ideal S2000x64 .f32 := mulf v10 v11
  have v14 : FVec Ideal S1x64 .f32 := shapeCast S1x64 g shapeCasts_S1x64_S1x64
  have v15 : FVec Ideal S2000x64 .f32 := broadcastTo S2000x64 v14 broadcasts_S1x64_S2000x64
  have v16 : FVec Ideal S2000x64 .f32 := mulf v12 v15
  have v18 : FVec Ideal S1x64 .f32 := shapeCast S1x64 be shapeCasts_S1x64_S1x64
  have v19 : FVec Ideal S2000x64 .f32 := broadcastTo S2000x64 v18 broadcasts_S1x64_S2000x64
  have v20 : FVec Ideal S2000x64 .f32 := addf v16 v19
  v20

theorem rsqrt_apply {s : Shape} {φ : FTy} (a : FVec Ideal s φ) (i : s.Idx) : rsqrt a i = Ideal.rsqrt (a i) := rfl

theorem row_bcast (v : FVec Ideal S1x64 .f32) (p : Fin 2000) (q : Fin 64) :
    broadcastTo S2000x64 v broadcasts_S1x64_S2000x64 (ix2 p q) = v (ix2 (0 : Fin 1) q) :=
  broadcastTo_1b_ab_apply v broadcasts_S1x64_S2000x64 p q

theorem bn3_apply (mo : Vec Ideal S2000x64 .f32) (vr mean g be : Vec Ideal S1x64 .f32) (p : Fin 2000) (q : Fin 64) :
    bn3 mo vr mean g be (ix2 p q)
      = ((mo (ix2 p q) - mean (ix2 (0 : Fin 1) q)) * Ideal.rsqrt (vr (ix2 (0 : Fin 1) q) + Gcn.cEps)) * g (ix2 (0 : Fin 1) q)
        + be (ix2 (0 : Fin 1) q) := by
  unfold bn3
  simp only [shapeCast_self]
  rw [addf_apply, mulf_apply, mulf_apply, subf_apply, row_bcast, row_bcast, row_bcast, row_bcast, rsqrt_apply, addf_apply,
    broadcast_apply]
  rfl

theorem pay3k_eq (mo : Vec Ideal S2000x64 .f32) (vr mean g be : Vec Ideal S1x64 .f32) :
    k3_pay1 (F := Ideal) mo vr mean g be = lsmTail (bn3 mo vr mean g be) := rfl

theorem pay3k_apply (mo : Vec Ideal S2000x64 .f32) (vr mean g be : Vec Ideal S1x64 .f32) (p : Fin 2000) (j : Fin 64) :
    k3_pay1 (F := Ideal) mo vr mean g be (ix2 p j)
      = Gcn.lsmK (fun q : Fin 64 => ((mo (ix2 p q) - mean (ix2 (0 : Fin 1) q)) * Ideal.rsqrt (vr (ix2 (0 : Fin 1) q) + Gcn.cEps))
          * g (ix2 (0 : Fin 1) q) + be (ix2 (0 : Fin 1) q)) j := by
  rw [pay3k_eq, lsm_rows]
  exact congrArg (fun z : Fin 64 → EReal => Gcn.lsmK z j) (funext fun q => bn3_apply mo vr mean g be p q)

end Cert.KernelIdeal.Pay

end
-- ==== Proof.Blk3.lean ====
import proofs.«405293_j84817014161572_1_alg».proof.Proof.Reg3
import proofs.«405293_j84817014161572_1_alg».proof.Proof.Spec
import proofs.«405293_j84817014161572_1_alg».proof.Proof.PayK3
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.SL Idealize.SL.Sem

variable (V : (c : Dev nD) → (b : Ref sig .tc) → Buf (Elt Ideal) ((c : Thread nD τ).loc b))

theorem idx3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem lt50 (t : Fin cfg3.N) : t.val < 50 := lt_of_lt_of_eq t.isLt N_3

theorem row_lt (t : Fin cfg3.N) (p : Fin 2000) : t.val * 2000 + p.val < 100000 := by
  have := lt50 t; have := p.isLt; omega

abbrev rowOf (t : Fin cfg3.N) (p : Fin 2000) : Fin 100000 := ⟨t.val * 2000 + p.val, row_lt t p⟩

theorem emb0 (t : Fin cfg3.N) (p : Fin 2000) (q : Fin 64) :
    ((cfg3.win 0).blk t).view.emb (ix2 p q) = ix2 (rowOf t p) q := by
  obtain ⟨e0, e1, -⟩ := idx3 t
  funext a; apply Fin.ext
  match a with
  | ⟨0, _⟩ => show win3_0.index t (0 : Fin 2) * 2000 + 1 * p.val = t.val * 2000 + p.val; omega
  | ⟨1, _⟩ => show win3_0.index t (1 : Fin 2) * 64 + 1 * q.val = q.val; omega

theorem emb5 (t : Fin cfg3.N) (p : Fin 2000) (q : Fin 64) :
    ((cfg3.win 5).blk t).view.emb (ix2 p q) = ix2 (rowOf t p) q := by
  obtain ⟨-, -, e0, e1, -⟩ := idx3 t
  funext a; apply Fin.ext
  match a with
  | ⟨0, _⟩ => show win3_5.index t (0 : Fin 2) * 2000 + 1 * p.val = t.val * 2000 + p.val; omega
  | ⟨1, _⟩ => show win3_5.index t (1 : Fin 2) * 64 + 1 * q.val = q.val; omega

theorem emb1 (t : Fin cfg3.N) (q : Fin 64) : ((cfg3.win 1).blk t).view.emb (ix2 (0 : Fin 1) q) = ix2 (0 : Fin 1) q := by
  obtain ⟨-, -, -, -, e0, e1, -⟩ := idx3 t
  funext a; apply Fin.ext
  match a with
  | ⟨0, _⟩ => show win3_1.index t (0 : Fin 2) * 1 + 1 * 0 = 0; omega
  | ⟨1, _⟩ => show win3_1.index t (1 : Fin 2) * 64 + 1 * q.val = q.val; omega
theorem emb2 (t : Fin cfg3.N) (q : Fin 64) : ((cfg3.win 2).blk t).view.emb (ix2 (0 : Fin 1) q) = ix2 (0 : Fin 1) q := by
  obtain ⟨-, -, -, -, -, -, e0, e1, -⟩ := idx3 t
  funext a; apply Fin.ext
  match a with
  | ⟨0, _⟩ => show win3_2.index t (0 : Fin 2) * 1 + 1 * 0 = 0; omega
  | ⟨1, _⟩ => show win3_2.index t (1 : Fin 2) * 64 + 1 * q.val = q.val; omega
theorem emb3 (t : Fin cfg3.N) (q : Fin 64) : ((cfg3.win 3).blk t).view.emb (ix2 (0 : Fin 1) q) = ix2 (0 : Fin 1) q := by
  obtain ⟨-, -, -, -, -, -, -, -, e0, e1, -⟩ := idx3 t
  funext a; apply Fin.ext
  match a with
  | ⟨0, _⟩ => show win3_3.index t (0 : Fin 2) * 1 + 1 * 0 = 0; omega
  | ⟨1, _⟩ => show win3_3.index t (1 : Fin 2) * 64 + 1 * q.val = q.val; omega
theorem emb4 (t : Fin cfg3.N) (q : Fin 64) : ((cfg3.win 4).blk t).view.emb (ix2 (0 : Fin 1) q) = ix2 (0 : Fin 1) q := by
  obtain ⟨-, -, -, -, -, -, -, -, -, -, e0, e1⟩ := idx3 t
  funext a; apply Fin.ext
  match a with
  | ⟨0, _⟩ => show win3_4.index t (0 : Fin 2) * 1 + 1 * 0 = 0; omega
  | ⟨1, _⟩ => show win3_4.index t (1 : Fin 2) * 64 + 1 * q.val = q.val; omega

theorem blk0_apply (c : Dev nD) (t : Fin cfg3.N) (p : Fin 2000) (q : Fin 64) :
    iblk3 V c 0 t (ix2 p q) = Gcn.fn2 (V c main_v60_0) (rowOf t p) q := by
  show V c main_v60_0 (((cfg3.win 0).blk t).view.emb (ix2 p q)) = V c main_v60_0 (ix2 (rowOf t p) q)
  rw [emb0]
theorem blk1_apply (c : Dev nD) (t : Fin cfg3.N) (q : Fin 64) :
    iblk3 V c 1 t (ix2 (0 : Fin 1) q) = V c main_v62 (ix2 (0 : Fin 1) q) := by
  show V c main_v62 (((cfg3.win 1).blk t).view.emb (ix2 (0 : Fin 1) q)) = V c main_v62 (ix2 (0 : Fin 1) q)
  rw [emb1]
theorem blk2_apply (c : Dev nD) (t : Fin cfg3.N) (q : Fin 64) :
    iblk3 V c 2 t (ix2 (0 : Fin 1) q) = V c main_v66 (ix2 (0 : Fin 1) q) := by
  show V c main_v66 (((cfg3.win 2).blk t).view.emb (ix2 (0 : Fin 1) q)) = V c main_v66 (ix2 (0 : Fin 1) q)
  rw [emb2]
theorem blk3_apply (c : Dev nD) (t : Fin cfg3.N) (q : Fin 64) :
    iblk3 V c 3 t (ix2 (0 : Fin 1) q) = V c main_v67 (ix2 (0 : Fin 1) q) := by
  show V c main_v67 (((cfg3.win 3).blk t).view.emb (ix2 (0 : Fin 1) q)) = V c main_v67 (ix2 (0 : Fin 1) q)
  rw [emb3]
theorem blk4_apply (c : Dev nD) (t : Fin cfg3.N) (q : Fin 64) :
    iblk3 V c 4 t (ix2 (0 : Fin 1) q) = V c main_v68 (ix2 (0 : Fin 1) q) := by
  show V c main_v68 (((cfg3.win 4).blk t).view.emb (ix2 (0 : Fin 1) q)) = V c main_v68 (ix2 (0 : Fin 1) q)
  rw [emb4]

def res3 (m0 : FVec Ideal S100000x64 .f32) (mu vr g be : FVec Ideal S1x64 .f32) : Gcn.Mat Gcn.NN 64 :=
  fun r => Gcn.lsmK (fun q : Fin 64 => ((Gcn.fn2 m0 r q - mu (ix2 (0 : Fin 1) q)) * Ideal.rsqrt (vr (ix2 (0 : Fin 1) q) + Gcn.cEps))
    * g (ix2 (0 : Fin 1) q) + be (ix2 (0 : Fin 1) q))

abbrev G3 (c : Dev nD) : FVec Ideal S100000x64 .f32 :=
  Gcn.arr2 (res3 (V c main_v60_0) (V c main_v62) (V c main_v66) (V c main_v67) (V c main_v68))

theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero off3_zero]
  funext j
  obtain ⟨p, q, rfl⟩ : ∃ (p : Fin 2000) (q : Fin 64), j = ix2 p q := ⟨j 0, j 1, eq_ix2 j⟩
  refine (Pay.pay3k_apply _ _ _ _ _ p q).trans ?_
  show _ = G3 V c (((cfg3.win 5).blk t).view.emb (ix2 p q))
  rw [emb5]
  simp only [blk0_apply, blk1_apply, blk2_apply, blk3_apply, blk4_apply]
  rfl

theorem mem_blk3 (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v69).slice (win3_5.rect t)).set ↔ _
  rw [View.set_slice_whole, Rect.mem_set_unit]
  exact Iff.rfl

theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 50 := N_3
  let t : Fin cfg3.N := ⟨(i 0).val / 2000, by show (i 0).val / 2000 < grid3.N; omega⟩
  obtain ⟨-, -, e0, e1, -⟩ := idx3 t
  have ht : t.val = (i 0).val / 2000 := rfl
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

abbrev rowMean (c : Dev nD) : FVec Ideal S1x64 .f32 := V c main_v62
abbrev rowVar (c : Dev nD) : FVec Ideal S1x64 .f32 := V c main_v66
abbrev rowScale (c : Dev nD) : FVec Ideal S1x64 .f32 := V c main_v67
abbrev rowShift (c : Dev nD) : FVec Ideal S1x64 .f32 := V c main_v68

theorem arr3_eq (c : Dev nD) : (dat3 (F := Ideal) V c).arrAt 5 cfg3.N = G3 V c :=
  (dat3 (F := Ideal) V c).arrAt_eq_of_cover 5 (G3 V c) (fun t _ => flushed3_eq V c t) cover3

theorem final3 (c : Dev nD) : Gcn.fn2 ((dat3 (F := Ideal) V c).arrAt 5 cfg3.N) = fun r => Gcn.lsmK (fun q : Fin 64 =>
    ((Gcn.fn2 (V c main_v60_0) r q - rowMean V c (ix2 (0 : Fin 1) q)) * Ideal.rsqrt (rowVar V c (ix2 (0 : Fin 1) q) + Gcn.cEps))
      * rowScale V c (ix2 (0 : Fin 1) q) + rowShift V c (ix2 (0 : Fin 1) q)) := by
  rw [arr3_eq]
  rfl

end Cert.KernelIdeal.Val

end
-- ==== Proof.Glue.lean ====
import proofs.«405293_j84817014161572_1_alg».proof.Proof.Gen.KernelIdeal.Launch
import Idealize.ShloMosaic.Lib.StableHlo.Run
import Idealize.ShloMosaic.Lib.ValueLayout

noncomputable section

namespace Cert.KernelIdeal.Glue

open Cert.KernelIdeal Cert.KernelIdeal.Gen Idealize.ShloMosaic Idealize.ShloMosaic.TcCoe Idealize.ShloMosaic.StableHlo

variable {F : FTy → Type} [FloatOps F]

def srcRaw (e : (⟨S2x3200000, .i32⟩ : BufTy).Contents (Elt F)) : (⟨S3300000, .i32⟩ : BufTy).Contents (Elt F) :=
  concatenate S3300000 0
    [⟨S3200000, fun i => shapeCast S3200000 (extractStridedSlice S1x3200000 ![0, 0] e slices_S2x3200000_S1x3200000_0_0) shapeCasts_S1x3200000_S3200000 i⟩,
     ⟨S100000, (iotaInDim S100000 32 0 : (⟨S100000, .i32⟩ : BufTy).Contents (Elt F))⟩]
    concatenates_S3200000_S100000_S3300000_d0

def dstRaw (e : (⟨S2x3200000, .i32⟩ : BufTy).Contents (Elt F)) : (⟨S3300000, .i32⟩ : BufTy).Contents (Elt F) :=
  concatenate S3300000 0
    [⟨S3200000, fun i => shapeCast S3200000 (extractStridedSlice S1x3200000 ![1, 0] e slices_S2x3200000_S1x3200000_1_0) shapeCasts_S1x3200000_S3200000 i⟩,
     ⟨S100000, (iotaInDim S100000 32 0 : (⟨S100000, .i32⟩ : BufTy).Contents (Elt F))⟩]
    concatenates_S3200000_S100000_S3300000_d0

def wrapIdx (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32 : (⟨S_, .i32⟩ : BufTy).Contents (Elt F))))
      (addi v (broadcastInDim S3300000 ![] bcast_S_S3300000 (constantI S_ 32 100000#32 : (⟨S_, .i32⟩ : BufTy).Contents (Elt F)))) v)

def degT (e : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32 : (⟨S_, .f32⟩ : BufTy).Contents (Elt F)))
    (broadcastInDim S3300000x1 ![0] bcast_S3300000_S3300000x1_0 (dstRaw e))
    (broadcastInDim S3300000 ![] bcast_S_S3300000 (constant S_ .f32 0x3F800000#32 : (⟨S_, .f32⟩ : BufTy).Contents (Elt F)))

def disT (e : (⟨S2x3200000, .i32⟩ : BufTy).Contents (Elt F)) : (⟨S100000, .f32⟩ : BufTy).Contents (Elt F) :=
  Host.rsqrt (maximumf (degT e)
    (broadcastInDim S100000 ![] bcast_S_S100000 (constant S_ .f32 0x3F800000#32 : (⟨S_, .f32⟩ : BufTy).Contents (Elt F))))

def normT (e : (⟨S2x3200000, .i32⟩ : BufTy).Contents (Elt F)) : (⟨S3300000, .f32⟩ : BufTy).Contents (Elt F) :=
  mulf (Host.gather gather_S100000_S3300000x1_S3300000_n_0_n_n_0_1_1 (disT e) (wrapIdx (srcRaw e)))
    (Host.gather gather_S100000_S3300000x1_S3300000_n_0_n_n_0_1_1 (disT e) (wrapIdx (dstRaw e)))

def agg16C (s d : (⟨S3300000, .i32⟩ : BufTy).Contents (Elt F)) (nrm : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32 : (⟨S_, .f32⟩ : BufTy).Contents (Elt F)))
    (broadcastInDim S3300000x1 ![0] bcast_S3300000_S3300000x1_0 d)
    (mulf (Host.gather gather_S100000x16_S3300000x1_S3300000x16_1_0_n_n_0_1_116 h (wrapIdx s))
      (broadcastInDim S3300000x16 ![0, 1] bcast_S3300000x1_S3300000x16_0_1
        (broadcastInDim S3300000x1 ![0] bcast_S3300000_S3300000x1_0 nrm)))

def agg64C (s d : (⟨S3300000, .i32⟩ : BufTy).Contents (Elt F)) (nrm : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32 : (⟨S_, .f32⟩ : BufTy).Contents (Elt F)))
    (broadcastInDim S3300000x1 ![0] bcast_S3300000_S3300000x1_0 d)
    (mulf (Host.gather gather_S100000x64_S3300000x1_S3300000x64_1_0_n_n_0_1_164 h (wrapIdx s))
      (broadcastInDim S3300000x64 ![0, 1] bcast_S3300000x1_S3300000x64_0_1
        (broadcastInDim S3300000x1 ![0] bcast_S3300000_S3300000x1_0 nrm)))

def agg16T (e : (⟨S2x3200000, .i32⟩ : BufTy).Contents (Elt F)) (h : (⟨S100000x16, .f32⟩ : BufTy).Contents (Elt F)) : (⟨S100000x16, .f32⟩ : BufTy).Contents (Elt F) :=
  agg16C (srcRaw e) (dstRaw e) (normT e) h

def agg64T (e : (⟨S2x3200000, .i32⟩ : BufTy).Contents (Elt F)) (h : (⟨S100000x64, .f32⟩ : BufTy).Contents (Elt F)) : (⟨S100000x64, .f32⟩ : BufTy).Contents (Elt F) :=
  agg64C (srcRaw e) (dstRaw e) (normT e) h

def meanT (s : (⟨S1x64, .f32⟩ : BufTy).Contents (Elt F)) : (⟨S1x64, .f32⟩ : BufTy).Contents (Elt F) :=
  Host.divf s (broadcastInDim S1x64 ![] bcast_S_S1x64 (constant S_ .f32 0x47C35000#32 : (⟨S_, .f32⟩ : BufTy).Contents (Elt F)))

def varT (s q : (⟨S1x64, .f32⟩ : BufTy).Contents (Elt F)) : (⟨S1x64, .f32⟩ : BufTy).Contents (Elt F) :=
  subf (Host.divf q (broadcastInDim S1x64 ![] bcast_S_S1x64 (constant S_ .f32 0x47C35000#32 : (⟨S_, .f32⟩ : BufTy).Contents (Elt F))))
    (mulf (meanT s) (meanT s))

def row16 (v : (⟨S16, .f32⟩ : BufTy).Contents (Elt F)) : (⟨S1x16, .f32⟩ : BufTy).Contents (Elt F) :=
  fun i => shapeCast S1x16 v shapeCasts_S16_S1x16 i

def row64 (v : (⟨S64, .f32⟩ : BufTy).Contents (Elt F)) : (⟨S1x64, .f32⟩ : BufTy).Contents (Elt F) :=
  fun i => shapeCast S1x64 v shapeCasts_S64_S1x64 i

section Read

variable (W : Valuation τ sig (Elt F))

theorem host0_v3 : StableHlo.after hostOps0 W (Proc.devRef .tc main_v3) = srcRaw (W (Proc.devRef .tc main_arg1)) := by
  after_results; rfl

theorem host0_v6 : StableHlo.after hostOps0 W (Proc.devRef .tc main_v6) = dstRaw (W (Proc.devRef .tc main_arg1)) := by
  after_results; rfl

theorem host0_v28 : StableHlo.after hostOps0 W (Proc.devRef .tc main_v28) = normT (W (Proc.devRef .tc main_arg1)) := by
  after_results_simp; rfl

theorem host1_v42 : StableHlo.after hostOps1 W (Proc.devRef .tc main_v42)
    = agg16C (W (Proc.devRef .tc main_v3)) (W (Proc.devRef .tc main_v6)) (W (Proc.devRef .tc main_v28))
        (W (Proc.devRef .tc main_v29)) := by
  after_results_simp; rfl

theorem host1_v43 : StableHlo.after hostOps1 W (Proc.devRef .tc main_v43) = row16 (W (Proc.devRef .tc main_arg3)) := by
  after_results; rfl

theorem host2_v57 : StableHlo.after hostOps2 W (Proc.devRef .tc main_v57)
    = agg64C (W (Proc.devRef .tc main_v3)) (W (Proc.devRef .tc main_v6)) (W (Proc.devRef .tc main_v28))
        (W (Proc.devRef .tc main_v44)) := by
  after_results_simp; rfl

theorem host2_v58 : StableHlo.after hostOps2 W (Proc.devRef .tc main_v58) = row64 (W (Proc.devRef .tc main_arg5)) := by
  after_results; rfl

theorem host2_v59 : StableHlo.after hostOps2 W (Proc.devRef .tc main_v59) = row64 (W (Proc.devRef .tc main_arg7)) := by
  after_results; rfl

theorem host3_v62 : StableHlo.after hostOps3 W (Proc.devRef .tc main_v62) = meanT (W (Proc.devRef .tc main_v60_1)) := by
  after_results; rfl

theorem host3_v66 : StableHlo.after hostOps3 W (Proc.devRef .tc main_v66)
    = varT (W (Proc.devRef .tc main_v60_1)) (W (Proc.devRef .tc main_v60_2)) := by
  after_results; rfl

theorem host3_v67 : StableHlo.after hostOps3 W (Proc.devRef .tc main_v67) = row64 (W (Proc.devRef .tc main_arg8)) := by
  after_results; rfl

theorem host3_v68 : StableHlo.after hostOps3 W (Proc.devRef .tc main_v68) = row64 (W (Proc.devRef .tc main_arg9)) := by
  after_results; rfl

end Read

theorem row16_ix2 (v : (⟨S16, .f32⟩ : BufTy).Contents (Elt F)) (j : Fin 16) :
    row16 v (ValueIdx.ix2 (0 : Fin 1) j) = v (ValueIdx.ix1 j) := by
  exact ValueIdx.shapeCast_a_1a_apply v shapeCasts_S16_S1x16 0 j

theorem row64_ix2 (v : (⟨S64, .f32⟩ : BufTy).Contents (Elt F)) (j : Fin 64) :
    row64 v (ValueIdx.ix2 (0 : Fin 1) j) = v (ValueIdx.ix1 j) := by
  exact ValueIdx.shapeCast_a_1a_apply v shapeCasts_S64_S1x64 0 j

theorem meanT_apply (s : (⟨S1x64, .f32⟩ : BufTy).Contents (Elt Ideal)) (j : Fin 64) :
    meanT (F := Ideal) s (ValueIdx.ix2 (0 : Fin 1) j)
      = Ideal.div (s (ValueIdx.ix2 (0 : Fin 1) j)) (Ideal.ofBits .f32 0x47C35000#32) := rfl

theorem varT_apply (s q : (⟨S1x64, .f32⟩ : BufTy).Contents (Elt Ideal)) (j : Fin 64) :
    varT (F := Ideal) s q (ValueIdx.ix2 (0 : Fin 1) j)
      = Ideal.div (q (ValueIdx.ix2 (0 : Fin 1) j)) (Ideal.ofBits .f32 0x47C35000#32)
        - Ideal.div (s (ValueIdx.ix2 (0 : Fin 1) j)) (Ideal.ofBits .f32 0x47C35000#32)
          * Ideal.div (s (ValueIdx.ix2 (0 : Fin 1) j)) (Ideal.ofBits .f32 0x47C35000#32) := rfl

end Cert.KernelIdeal.Glue

end
-- ==== Proof.AggFn.lean ====
import proofs.«405293_j84817014161572_1_alg».proof.Proof.Glue
import proofs.«405293_j84817014161572_1_alg».proof.Proof.Spec

noncomputable section

namespace Gcn

open Idealize.ShloMosaic Cert.KernelIdeal

abbrev Edges : Type := (⟨S2x3200000, .i32⟩ : BufTy).Contents (Elt Ideal)

def aggFn16 (e : Edges) : Mat NN 16 → Mat NN 16 :=
  fun h => fn2 (Glue.agg16T (F := Ideal) e (arr2 h))

def aggFn64 (e : Edges) : Mat NN 64 → Mat NN 64 :=
  fun h => fn2 (Glue.agg64T (F := Ideal) e (arr2 h))

theorem aggFn16_fn2 (e : Edges) (h : (⟨S100000x16, .f32⟩ : BufTy).Contents (Elt Ideal)) :
    aggFn16 e (fn2 h) = fn2 (Glue.agg16T (F := Ideal) e h) := by
  unfold aggFn16; rw [arr2_fn2]

theorem aggFn64_fn2 (e : Edges) (h : (⟨S100000x64, .f32⟩ : BufTy).Contents (Elt Ideal)) :
    aggFn64 e (fn2 h) = fn2 (Glue.agg64T (F := Ideal) e h) := by
  unfold aggFn64; rw [arr2_fn2]

end Gcn

end
-- ==== Proof.KVal.lean ====
import proofs.«405293_j84817014161572_1_alg».proof.Proof.Run
import proofs.«405293_j84817014161572_1_alg».proof.Proof.Blk0
import proofs.«405293_j84817014161572_1_alg».proof.Proof.Blk1
import proofs.«405293_j84817014161572_1_alg».proof.Proof.Blk2
import proofs.«405293_j84817014161572_1_alg».proof.Proof.Blk3
import proofs.«405293_j84817014161572_1_alg».proof.Proof.AggFn

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

theorem Bd1_v3 : Bd1 m ρ c (Proc.devRef .tc main_v3) = Glue.srcRaw (F := Ideal) (m ((c : Thread nD τ).loc main_arg1)) := Glue.host0_v3 (Bd0 m ρ c)
theorem Bd1_v6 : Bd1 m ρ c (Proc.devRef .tc main_v6) = Glue.dstRaw (F := Ideal) (m ((c : Thread nD τ).loc main_arg1)) := Glue.host0_v6 (Bd0 m ρ c)
theorem Bd1_v28 : Bd1 m ρ c (Proc.devRef .tc main_v28) = Glue.normT (F := Ideal) (m ((c : Thread nD τ).loc main_arg1)) := Glue.host0_v28 (Bd0 m ρ c)
abbrev edgeRefs : List (Ref sig .tc) := [main_v3, main_v6, main_v28]

-- the edge lists and the edge weights are written by the first host stretch only
theorem Bd2_edge (b : Ref sig .tc) (hb : b ∈ edgeRefs) : Bd2 m ρ c (Proc.devRef .tc b) = Bd1 m ρ c (Proc.devRef .tc b) :=
  Bd2_of_ne m ρ c b ((by decide : ∀ b ∈ edgeRefs, ∀ w, Pipeline.arrRef spec0 w ≠ b) b hb)
theorem Bd4_edge (b : Ref sig .tc) (hb : b ∈ edgeRefs) : Bd4 m ρ c (Proc.devRef .tc b) = Bd1 m ρ c (Proc.devRef .tc b) :=
  (Bd4_of_ne m ρ c b ((by decide : ∀ b ∈ edgeRefs, ∀ w, Pipeline.arrRef spec1 w ≠ b) b hb)).trans
    ((StableHlo.after_of_writes_sub hostOps1 _ hostOps1_writes ((by decide : ∀ b ∈ edgeRefs, b ∉ hostOps1_W) b hb)).trans (Bd2_edge m ρ c b hb))

theorem out0 : Gcn.fn2 ((dat0 (F := Ideal) (En1 m ρ) c).arrAt 2 cfg0.N) = Gcn.mm (Gcn.fn2 (m ((c : Thread nD τ).loc main_arg0))) (Gcn.fn2 (m ((c : Thread nD τ).loc main_arg2))) := by
  rw [final0 (En1 m ρ) c]
  rw [show En1 m ρ c main_arg0 = (m ((c : Thread nD τ).loc main_arg0)) from Bd1_arg m ρ c main_arg0 (by decide), show En1 m ρ c main_arg2 = (m ((c : Thread nD τ).loc main_arg2)) from Bd1_arg m ρ c main_arg2 (by decide)]

theorem in1_v42 : En3 m ρ c main_v42 = Glue.agg16T (F := Ideal) (m ((c : Thread nD τ).loc main_arg1)) ((dat0 (F := Ideal) (En1 m ρ) c).arrAt 2 cfg0.N) := by
  unfold Glue.agg16T
  show Bd3 m ρ c (Proc.devRef .tc main_v42) = _
  rw [show Bd3 m ρ c (Proc.devRef .tc main_v42) = _ from Glue.host1_v42 (Bd2 m ρ c), Bd2_edge m ρ c main_v3 (by decide), Bd2_edge m ρ c main_v6 (by decide), Bd2_edge m ρ c main_v28 (by decide), Bd1_v3, Bd1_v6, Bd1_v28,
    show Bd2 m ρ c (Proc.devRef .tc main_v29) = _ from Bd2_arr m ρ c 2]
theorem in1_v43 : En3 m ρ c main_v43 = Glue.row16 (F := Ideal) (m ((c : Thread nD τ).loc main_arg3)) := by
  show Bd3 m ρ c (Proc.devRef .tc main_v43) = _
  rw [show Bd3 m ρ c (Proc.devRef .tc main_v43) = _ from Glue.host1_v43 (Bd2 m ρ c), Bd2_arg m ρ c main_arg3 (by decide)]
theorem in1_arg4 : En3 m ρ c main_arg4 = (m ((c : Thread nD τ).loc main_arg4)) := Bd3_arg m ρ c main_arg4 (by decide)

theorem out1 : Gcn.fn2 ((dat1 (F := Ideal) (En3 m ρ) c).arrAt 3 cfg1.N)
    = Gcn.mm (Gcn.hid1 (Gcn.aggFn16 (m ((c : Thread nD τ).loc main_arg1))) (Gcn.fn2 (m ((c : Thread nD τ).loc main_arg0))) (Gcn.fn2 (m ((c : Thread nD τ).loc main_arg2))) (Gcn.fn1 (m ((c : Thread nD τ).loc main_arg3)))) (Gcn.fn2 (m ((c : Thread nD τ).loc main_arg4))) := by
  rw [final1 (En3 m ρ) c, in1_v42, in1_v43, in1_arg4, ← Gcn.aggFn16_fn2, out0]
  refine congrArg (fun a => Gcn.mm a (Gcn.fn2 (m ((c : Thread nD τ).loc main_arg4)))) ?_
  funext r j
  unfold Gcn.hid1 Gcn.fn1
  rw [Glue.row16_ix2]

theorem in2_v57 : En5 m ρ c main_v57 = Glue.agg64T (F := Ideal) (m ((c : Thread nD τ).loc main_arg1)) ((dat1 (F := Ideal) (En3 m ρ) c).arrAt 3 cfg1.N) := by
  unfold Glue.agg64T
  show Bd5 m ρ c (Proc.devRef .tc main_v57) = _
  rw [show Bd5 m ρ c (Proc.devRef .tc main_v57) = _ from Glue.host2_v57 (Bd4 m ρ c), Bd4_edge m ρ c main_v3 (by decide), Bd4_edge m ρ c main_v6 (by decide),
    Bd4_edge m ρ c main_v28 (by decide), Bd1_v3, Bd1_v6, Bd1_v28, show Bd4 m ρ c (Proc.devRef .tc main_v44) = _ from Bd4_arr m ρ c 3]
theorem in2_v58 : En5 m ρ c main_v58 = Glue.row64 (F := Ideal) (m ((c : Thread nD τ).loc main_arg5)) := by
  show Bd5 m ρ c (Proc.devRef .tc main_v58) = _
  rw [show Bd5 m ρ c (Proc.devRef .tc main_v58) = _ from Glue.host2_v58 (Bd4 m ρ c), Bd4_arg m ρ c main_arg5 (by decide)]
theorem in2_v59 : En5 m ρ c main_v59 = Glue.row64 (F := Ideal) (m ((c : Thread nD τ).loc main_arg7)) := by
  show Bd5 m ρ c (Proc.devRef .tc main_v59) = _
  rw [show Bd5 m ρ c (Proc.devRef .tc main_v59) = _ from Glue.host2_v59 (Bd4 m ρ c), Bd4_arg m ρ c main_arg7 (by decide)]
theorem in2_arg10 : En5 m ρ c main_arg10 = (m ((c : Thread nD τ).loc main_arg10)) := Bd5_arg m ρ c main_arg10 (by decide)
theorem in2_arg6 : En5 m ρ c main_arg6 = (m ((c : Thread nD τ).loc main_arg6)) := Bd5_arg m ρ c main_arg6 (by decide)

abbrev MK : Gcn.Mat Gcn.NN 64 :=
  Gcn.mlpK (Gcn.aggFn16 (m ((c : Thread nD τ).loc main_arg1))) (Gcn.aggFn64 (m ((c : Thread nD τ).loc main_arg1))) (Gcn.fn2 (m ((c : Thread nD τ).loc main_arg0))) (Gcn.fn2 (m ((c : Thread nD τ).loc main_arg2))) (Gcn.fn1 (m ((c : Thread nD τ).loc main_arg3)))
    (Gcn.fn2 (m ((c : Thread nD τ).loc main_arg4))) (Gcn.fn1 (m ((c : Thread nD τ).loc main_arg5))) (Gcn.fn2 (m ((c : Thread nD τ).loc main_arg6))) (Gcn.fn1 (m ((c : Thread nD τ).loc main_arg7))) (Gcn.fnCol (m ((c : Thread nD τ).loc main_arg10)))

theorem out2_5 : Gcn.fn2 ((dat2 (F := Ideal) (En5 m ρ) c).arrAt 5 cfg2.N) = MK m c := by
  rw [final2_5 (En5 m ρ) c, in2_v57, in2_v58, in2_v59, in2_arg10, in2_arg6]
  unfold MK Gcn.mlpK Gcn.logits
  refine congrArg₂ (fun a b => Gcn.dense (Gcn.fn2 (m ((c : Thread nD τ).loc main_arg6))) a (Gcn.fnCol (m ((c : Thread nD τ).loc main_arg10))) b) ?_ ?_
  · funext j; exact Glue.row64_ix2 _ j
  · funext r
    refine congrArg Gcn.lsmK ?_
    funext q
    rw [Glue.row64_ix2, ← Gcn.aggFn64_fn2, out1]
    rfl

theorem in3_v60_0 : En7 m ρ c main_v60_0 = (dat2 (F := Ideal) (En5 m ρ) c).arrAt 5 cfg2.N := by
  show Bd7 m ρ c (Proc.devRef .tc main_v60_0) = _
  rw [show Bd7 m ρ c (Proc.devRef .tc main_v60_0) = Bd6 m ρ c (Proc.devRef .tc main_v60_0) from
    StableHlo.after_of_writes_sub hostOps3 _ hostOps3_writes (by decide)]
  exact Bd6_arr m ρ c 5
theorem in3_v62 : En7 m ρ c main_v62 = Glue.meanT (F := Ideal) ((dat2 (F := Ideal) (En5 m ρ) c).arrAt 6 cfg2.N) := by
  show Bd7 m ρ c (Proc.devRef .tc main_v62) = _
  rw [show Bd7 m ρ c (Proc.devRef .tc main_v62) = _ from Glue.host3_v62 (Bd6 m ρ c),
    show Bd6 m ρ c (Proc.devRef .tc main_v60_1) = _ from Bd6_arr m ρ c 6]
theorem in3_v66 : En7 m ρ c main_v66 = Glue.varT (F := Ideal) ((dat2 (F := Ideal) (En5 m ρ) c).arrAt 6 cfg2.N) ((dat2 (F := Ideal) (En5 m ρ) c).arrAt 7 cfg2.N) := by
  show Bd7 m ρ c (Proc.devRef .tc main_v66) = _
  rw [show Bd7 m ρ c (Proc.devRef .tc main_v66) = _ from Glue.host3_v66 (Bd6 m ρ c),
    show Bd6 m ρ c (Proc.devRef .tc main_v60_1) = _ from Bd6_arr m ρ c 6,
    show Bd6 m ρ c (Proc.devRef .tc main_v60_2) = _ from Bd6_arr m ρ c 7]
theorem in3_v67 : En7 m ρ c main_v67 = Glue.row64 (F := Ideal) (m ((c : Thread nD τ).loc main_arg8)) := by
  show Bd7 m ρ c (Proc.devRef .tc main_v67) = _
  rw [show Bd7 m ρ c (Proc.devRef .tc main_v67) = _ from Glue.host3_v67 (Bd6 m ρ c), Bd6_arg m ρ c main_arg8 (by decide)]
theorem in3_v68 : En7 m ρ c main_v68 = Glue.row64 (F := Ideal) (m ((c : Thread nD τ).loc main_arg9)) := by
  show Bd7 m ρ c (Proc.devRef .tc main_v68) = _
  rw [show Bd7 m ρ c (Proc.devRef .tc main_v68) = _ from Glue.host3_v68 (Bd6 m ρ c), Bd6_arg m ρ c main_arg9 (by decide)]

theorem mean_row (j : Fin 64) : (En7 m ρ c main_v62) (ix2 (0 : Fin 1) j) = Gcn.colMean (MK m c) j := by
  rw [in3_v62, Glue.meanT_apply, final2_6 (En5 m ρ) c j, out2_5]
  rfl
theorem var_row (j : Fin 64) : (En7 m ρ c main_v66) (ix2 (0 : Fin 1) j) = Gcn.varK (MK m c) j := by
  rw [in3_v66, Glue.varT_apply, final2_6 (En5 m ρ) c j, final2_7 (En5 m ρ) c j, out2_5]
  rfl

theorem kernel_value : Gcn.fn2 ((dat3 (F := Ideal) (En7 m ρ) c).arrAt 5 cfg3.N)
    = Gcn.outK (Gcn.aggFn16 (m ((c : Thread nD τ).loc main_arg1))) (Gcn.aggFn64 (m ((c : Thread nD τ).loc main_arg1))) (Gcn.fn2 (m ((c : Thread nD τ).loc main_arg0))) (Gcn.fn2 (m ((c : Thread nD τ).loc main_arg2))) (Gcn.fn1 (m ((c : Thread nD τ).loc main_arg3)))
        (Gcn.fn2 (m ((c : Thread nD τ).loc main_arg4))) (Gcn.fn1 (m ((c : Thread nD τ).loc main_arg5))) (Gcn.fn2 (m ((c : Thread nD τ).loc main_arg6))) (Gcn.fn1 (m ((c : Thread nD τ).loc main_arg7))) (Gcn.fn1 (m ((c : Thread nD τ).loc main_arg8))) (Gcn.fn1 (m ((c : Thread nD τ).loc main_arg9))) (Gcn.fnCol (m ((c : Thread nD τ).loc main_arg10))) := by
  rw [final3 (En7 m ρ) c]
  simp only [rowMean, rowVar, rowScale, rowShift]
  unfold Gcn.outK
  funext r
  congr 1
  funext q
  rw [mean_row, var_row, in3_v60_0, out2_5, in3_v67, in3_v68, Glue.row64_ix2, Glue.row64_ix2]
  rfl

end Cert.KernelIdeal.Val

end
-- ==== Proof.RefParts.lean ====
import proofs.«405293_j84817014161572_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev A : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S3300000 ![] bcast_S_S3300000 : (⟨S_, .i32⟩ : BufTy).Contents (Elt F) → (⟨S3300000, .i32⟩ : BufTy).Contents (Elt F)),
    binary main_v3 main_v14 main_v15 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v16 (broadcastInDim S3300000 ![] bcast_S_S3300000 : (⟨S_, .i32⟩ : BufTy).Contents (Elt F) → (⟨S3300000, .i32⟩ : BufTy).Contents (Elt F)),
    binary main_v3 main_v16 main_v17 (addi : (⟨S3300000, .i32⟩ : BufTy).Contents (Elt F) → (⟨S3300000, .i32⟩ : BufTy).Contents (Elt F) → (⟨S3300000, .i32⟩ : BufTy).Contents (Elt F)),
    ternary main_v15 main_v17 main_v3 main_v18 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v18 main_v19 (broadcastInDim S3300000x1 ![0] bcast_S3300000_S3300000x1_0 : (⟨S3300000, .i32⟩ : BufTy).Contents (Elt F) → (⟨S3300000x1, .i32⟩ : BufTy).Contents (Elt F)),
    binary main_v13 main_v19 main_v20 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_3 (constantI S_ 32 0#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (addi : (⟨S3300000, .i32⟩ : BufTy).Contents (Elt F) → (⟨S3300000, .i32⟩ : BufTy).Contents (Elt F) → (⟨S3300000, .i32⟩ : BufTy).Contents (Elt F)),
    ternary main_v22 main_v24 main_v6 main_v25 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v25 main_v26 (broadcastInDim S3300000x1 ![0] bcast_S3300000_S3300000x1_0 : (⟨S3300000, .i32⟩ : BufTy).Contents (Elt F) → (⟨S3300000x1, .i32⟩ : BufTy).Contents (Elt F)),
    binary main_v13 main_v26 main_v27 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v20 main_v27 main_v28 (mulf : (⟨S3300000, .f32⟩ : BufTy).Contents (Elt F) → (⟨S3300000, .f32⟩ : BufTy).Contents (Elt F) → (⟨S3300000, .f32⟩ : BufTy).Contents (Elt F)) ]

abbrev B : List (HloOp τ sig (Elt F)) :=
  [ binary main_arg0 main_arg2 main_v29 ((fun l r => Host.dotGeneral dot_S100000x1024_S1024x16_S100000x16_1_0_0_1_n_n none l r) : (⟨S100000x1024, .f32⟩ : BufTy).Contents (Elt F) → (⟨S1024x16, .f32⟩ : BufTy).Contents (Elt F) → (⟨S100000x16, .f32⟩ : BufTy).Contents (Elt F)) ]

abbrev C : List (HloOp τ sig (Elt F)) :=
  [ nullary main_c_5 (constantI S_ 32 0#32),
    unary main_c_5 main_v30 (broadcastInDim S3300000 ![] bcast_S_S3300000 : (⟨S_, .i32⟩ : BufTy).Contents (Elt F) → (⟨S3300000, .i32⟩ : BufTy).Contents (Elt F)),
    binary main_v3 main_v30 main_v31 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (addi : (⟨S3300000, .i32⟩ : BufTy).Contents (Elt F) → (⟨S3300000, .i32⟩ : BufTy).Contents (Elt F) → (⟨S3300000, .i32⟩ : BufTy).Contents (Elt F)),
    ternary main_v31 main_v33 main_v3 main_v34 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v34 main_v35 (broadcastInDim S3300000x1 ![0] bcast_S3300000_S3300000x1_0 : (⟨S3300000, .i32⟩ : BufTy).Contents (Elt F) → (⟨S3300000x1, .i32⟩ : BufTy).Contents (Elt F)),
    binary main_v29 main_v35 main_v36 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v28 main_v37 (broadcastInDim S3300000x1 ![0] bcast_S3300000_S3300000x1_0 : (⟨S3300000, .f32⟩ : BufTy).Contents (Elt F) → (⟨S3300000x1, .f32⟩ : BufTy).Contents (Elt F)),
    unary main_v37 main_v38 (broadcastInDim S3300000x16 ![0, 1] bcast_S3300000x1_S3300000x16_0_1 : (⟨S3300000x1, .f32⟩ : BufTy).Contents (Elt F) → (⟨S3300000x16, .f32⟩ : BufTy).Contents (Elt F)),
    binary main_v36 main_v38 main_v39 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v40 (broadcastInDim S100000x16 ![] bcast_S_S100000x16 : (⟨S_, .f32⟩ : BufTy).Contents (Elt F) → (⟨S100000x16, .f32⟩ : BufTy).Contents (Elt F)),
    unary main_v6 main_v41 (broadcastInDim S3300000x1 ![0] bcast_S3300000_S3300000x1_0 : (⟨S3300000, .i32⟩ : BufTy).Contents (Elt F) → (⟨S3300000x1, .i32⟩ : BufTy).Contents (Elt F)),
    ternary main_v40 main_v41 main_v39 main_v42 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

abbrev D : List (HloOp τ sig (Elt F)) :=
  [ unary main_arg3 main_v43 (broadcastInDim S1x16 ![1] bcast_S16_S1x16_1 : (⟨S16, .f32⟩ : BufTy).Contents (Elt F) → (⟨S1x16, .f32⟩ : BufTy).Contents (Elt F)),
    unary main_v43 main_v44 (broadcastInDim S100000x16 ![0, 1] bcast_S1x16_S100000x16_0_1 : (⟨S1x16, .f32⟩ : BufTy).Contents (Elt F) → (⟨S100000x16, .f32⟩ : BufTy).Contents (Elt F)),
    binary main_v42 main_v44 main_v45 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v45) (TRef.of (T := ⟨S100000x16, .f32⟩) main_call0_v0) (TRef.of (T := ⟨S100000x16, .f32⟩) main_v46) maximumf,
    binary main_v46 main_arg4 main_v47 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)) ]

abbrev E : List (HloOp τ sig (Elt F)) :=
  [ nullary main_c_8 (constantI S_ 32 0#32),
    unary main_c_8 main_v48 (broadcastInDim S3300000 ![] bcast_S_S3300000 : (⟨S_, .i32⟩ : BufTy).Contents (Elt F) → (⟨S3300000, .i32⟩ : BufTy).Contents (Elt F)),
    binary main_v3 main_v48 main_v49 (cmpi .slt : (⟨S3300000, .i32⟩ : BufTy).Contents (Elt F) → (⟨S3300000, .i32⟩ : BufTy).Contents (Elt F) → (⟨S3300000, .i1⟩ : BufTy).Contents (Elt F)),
    nullary main_c_9 (constantI S_ 32 100000#32),
    unary main_c_9 main_v50 (broadcastInDim S3300000 ![] bcast_S_S3300000 : (⟨S_, .i32⟩ : BufTy).Contents (Elt F) → (⟨S3300000, .i32⟩ : BufTy).Contents (Elt F)),
    binary main_v3 main_v50 main_v51 (addi : (⟨S3300000, .i32⟩ : BufTy).Contents (Elt F) → (⟨S3300000, .i32⟩ : BufTy).Contents (Elt F) → (⟨S3300000, .i32⟩ : BufTy).Contents (Elt F)),
    ternary main_v49 main_v51 main_v3 main_v52 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v52 main_v53 (broadcastInDim S3300000x1 ![0] bcast_S3300000_S3300000x1_0 : (⟨S3300000, .i32⟩ : BufTy).Contents (Elt F) → (⟨S3300000x1, .i32⟩ : BufTy).Contents (Elt F)),
    binary main_v47 main_v53 main_v54 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v28 main_v55 (broadcastInDim S3300000x1 ![0] bcast_S3300000_S3300000x1_0 : (⟨S3300000, .f32⟩ : BufTy).Contents (Elt F) → (⟨S3300000x1, .f32⟩ : BufTy).Contents (Elt F)),
    unary main_v55 main_v56 (broadcastInDim S3300000x64 ![0, 1] bcast_S3300000x1_S3300000x64_0_1 : (⟨S3300000x1, .f32⟩ : BufTy).Contents (Elt F) → (⟨S3300000x64, .f32⟩ : BufTy).Contents (Elt F)),
    binary main_v54 main_v56 main_v57 (mulf : (⟨S3300000x64, .f32⟩ : BufTy).Contents (Elt F) → (⟨S3300000x64, .f32⟩ : BufTy).Contents (Elt F) → (⟨S3300000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v6 main_v59 (broadcastInDim S3300000x1 ![0] bcast_S3300000_S3300000x1_0 : (⟨S3300000, .i32⟩ : BufTy).Contents (Elt F) → (⟨S3300000x1, .i32⟩ : BufTy).Contents (Elt F)),
    ternary main_v58 main_v59 main_v57 main_v60 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

abbrev Fs : List (HloOp τ sig (Elt F)) :=
  [ unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v63) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v63) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v64) subf,
    unary main_arg10 main_v65 (Host.exp : (⟨S100000x1, .f32⟩ : BufTy).Contents (Elt F) → (⟨S100000x1, .f32⟩ : BufTy).Contents (Elt F)),
    unary main_v65 main_v66 (broadcastInDim S100000x64 ![0, 1] bcast_S100000x1_S100000x64_0_1 : (⟨S100000x1, .f32⟩ : BufTy).Contents (Elt F) → (⟨S100000x64, .f32⟩ : BufTy).Contents (Elt F)),
    binary main_v66 main_v64 main_v67 (mulf : (⟨S100000x64, .f32⟩ : BufTy).Contents (Elt F) → (⟨S100000x64, .f32⟩ : BufTy).Contents (Elt F) → (⟨S100000x64, .f32⟩ : BufTy).Contents (Elt F)),
    binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)) ]

abbrev G : List (HloOp τ sig (Elt F)) :=
  [ nullary main_cst_11 (constant S_ .f32 0x00000000#32),
    binary main_v71 main_cst_11 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v73 (broadcastInDim S64 ![] bcast_S_S64 : (⟨S_, .f32⟩ : BufTy).Contents (Elt F) → (⟨S64, .f32⟩ : BufTy).Contents (Elt F)),
    binary main_v72 main_v73 main_v74 (Host.divf : (⟨S64, .f32⟩ : BufTy).Contents (Elt F) → (⟨S64, .f32⟩ : BufTy).Contents (Elt F) → (⟨S64, .f32⟩ : BufTy).Contents (Elt F)),
    unary main_v74 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v71 main_v76 main_v77 (subf : (⟨S100000x64, .f32⟩ : BufTy).Contents (Elt F) → (⟨S100000x64, .f32⟩ : BufTy).Contents (Elt F) → (⟨S100000x64, .f32⟩ : BufTy).Contents (Elt F)),
    binary main_v77 main_v77 main_v78 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v78 main_cst_13 main_v79 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v80 (broadcastInDim S64 ![] bcast_S_S64 : (⟨S_, .f32⟩ : BufTy).Contents (Elt F) → (⟨S64, .f32⟩ : BufTy).Contents (Elt F)),
    binary main_v79 main_v80 main_v81 (Host.divf : (⟨S64, .f32⟩ : BufTy).Contents (Elt F) → (⟨S64, .f32⟩ : BufTy).Contents (Elt F) → (⟨S64, .f32⟩ : BufTy).Contents (Elt F)),
    unary main_v74 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v71 main_v83 main_v84 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v85 (broadcastInDim S64 ![] bcast_S_S64 : (⟨S_, .f32⟩ : BufTy).Contents (Elt F) → (⟨S64, .f32⟩ : BufTy).Contents (Elt F)),
    binary main_v81 main_v85 main_v86 (addf : (⟨S64, .f32⟩ : BufTy).Contents (Elt F) → (⟨S64, .f32⟩ : BufTy).Contents (Elt F) → (⟨S64, .f32⟩ : BufTy).Contents (Elt F)),
    unary main_v86 main_v87 (Host.rsqrt : (⟨S64, .f32⟩ : BufTy).Contents (Elt F) → (⟨S64, .f32⟩ : BufTy).Contents (Elt F)),
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v84 main_v89 main_v90 (mulf : (⟨S100000x64, .f32⟩ : BufTy).Contents (Elt F) → (⟨S100000x64, .f32⟩ : BufTy).Contents (Elt F) → (⟨S100000x64, .f32⟩ : BufTy).Contents (Elt F)),
    unary main_arg8 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v90 main_v92 main_v93 (mulf : (⟨S100000x64, .f32⟩ : BufTy).Contents (Elt F) → (⟨S100000x64, .f32⟩ : BufTy).Contents (Elt F) → (⟨S100000x64, .f32⟩ : BufTy).Contents (Elt F)),
    unary main_arg9 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)) ]

abbrev H : List (HloOp τ sig (Elt F)) :=
  [ TRef.nullary (TRef.of (T := ⟨S_, .f32⟩) main_call2_cst) (constant S_ .f32 0xFF800000#32),
    TRef.binary (TRef.of (T := ⟨S100000x64, .f32⟩) main_v96) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v96) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v97) subf ]

end Cert.ReferenceIdeal.RunH

namespace Cert.ReferenceIdeal.ValueP

open Cert.ReferenceIdeal Cert.ReferenceIdeal.Gen Cert.ReferenceIdeal.RunH Idealize.ShloMosaic Idealize.ShloMosaic.TcCoe Idealize.SL.Sem Idealize.ShloMosaic.StableHlo

variable {F : FTy → Type} [FloatOps F]

-- the whole program is the eight stretches in turn
abbrev ops : List (HloOp τ sig (Elt F)) := A ++ (B ++ (C ++ (D ++ (E ++ (Fs ++ (G ++ H))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.ValueP

end
-- ==== Proof.RefStages.lean ====
import proofs.«405293_j84817014161572_1_alg».proof.ReferenceIdeal
import proofs.«405293_j84817014161572_1_alg».proof.Proof.Gen.ReferenceIdeal
import proofs.«405293_j84817014161572_1_alg».proof.Proof.Glue

noncomputable section

namespace Cert.ReferenceIdeal.Stages

open Cert.ReferenceIdeal Cert.ReferenceIdeal.Gen Idealize.ShloMosaic Idealize.ShloMosaic.TcCoe Idealize.ShloMosaic.StableHlo

variable {F : FTy → Type} [FloatOps F]

def h1 (x : (⟨S100000x1024, .f32⟩ : BufTy).Contents (Elt F)) (w1 : (⟨S1024x16, .f32⟩ : BufTy).Contents (Elt F)) :
    (⟨S100000x16, .f32⟩ : BufTy).Contents (Elt F) :=
  Host.dotGeneral dot_S100000x1024_S1024x16_S100000x16_1_0_0_1_n_n none x w1

def l2 (a1 : (⟨S100000x16, .f32⟩ : BufTy).Contents (Elt F)) (b1 : (⟨S16, .f32⟩ : BufTy).Contents (Elt F))
    (w2 : (⟨S16x64, .f32⟩ : BufTy).Contents (Elt F)) : (⟨S100000x64, .f32⟩ : BufTy).Contents (Elt F) :=
  Host.dotGeneral dot_S100000x16_S16x64_S100000x64_1_0_0_1_n_n none
    (maximumf
      (addf a1 (broadcastInDim S100000x16 ![0, 1] bcast_S1x16_S100000x16_0_1 (broadcastInDim S1x16 ![1] bcast_S16_S1x16_1 b1)))
      (broadcastInDim S100000x16 ![] bcast_S_S100000x16 (constant S_ .f32 0x00000000#32 : (⟨S_, .f32⟩ : BufTy).Contents (Elt F))))
    w2

def rowsOf (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

def colsOf (v : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 v)

def rowMaxT (z : (⟨S100000x64, .f32⟩ : BufTy).Contents (Elt F)) : (⟨S100000, .f32⟩ : BufTy).Contents (Elt F) :=
  maximumf (broadcastInDim S100000 ![] bcast_S_S100000 (constant S_ .f32 0xFF800000#32 : (⟨S_, .f32⟩ : BufTy).Contents (Elt F)))
    (Host.reduce FloatOps.maximumf z (constant S_ .f32 0xFF800000#32 : (⟨S_, .f32⟩ : BufTy).Contents (Elt F))
      reducesTo_S100000x64_S100000_d1 h_S_)

def shiftT (z : (⟨S100000x64, .f32⟩ : BufTy).Contents (Elt F)) : (⟨S100000x64, .f32⟩ : BufTy).Contents (Elt F) :=
  subf z (colsOf (rowMaxT z))

def lsm (y : (⟨S100000x64, .f32⟩ : BufTy).Contents (Elt F)) : (⟨S100000x64, .f32⟩ : BufTy).Contents (Elt F) :=
  subf (shiftT y)
    (broadcastInDim S100000x64 ![0, 1] bcast_S100000x1_S100000x64_0_1
      (Host.log (broadcastInDim S100000x1 ![0] bcast_S100000_S100000x1_0
        (Host.reduceAdd (Host.exp (shiftT y)) (constant S_ .f32 0x00000000#32 : (⟨S_, .f32⟩ : BufTy).Contents (Elt F))
          reducesTo_S100000x64_S100000_d1 h_S_))))

def mlp (a2 : (⟨S100000x64, .f32⟩ : BufTy).Contents (Elt F)) (b2 : (⟨S64, .f32⟩ : BufTy).Contents (Elt F))
    (wr : (⟨S100000x1, .f32⟩ : BufTy).Contents (Elt F)) (mw : (⟨S64x64, .f32⟩ : BufTy).Contents (Elt F))
    (mb : (⟨S64, .f32⟩ : BufTy).Contents (Elt F)) : (⟨S100000x64, .f32⟩ : BufTy).Contents (Elt F) :=
  addf
    (Host.dotGeneral dot_S100000x64_S64x64_S100000x64_1_0_0_1_n_n none
      (mulf (broadcastInDim S100000x64 ![0, 1] bcast_S100000x1_S100000x64_0_1 (Host.exp wr)) (lsm (addf a2 (rowsOf b2))))
      mw)
    (rowsOf mb)

def colMeanT (M : (⟨S100000x64, .f32⟩ : BufTy).Contents (Elt F)) : (⟨S64, .f32⟩ : BufTy).Contents (Elt F) :=
  Host.divf
    (Host.reduceAdd M (constant S_ .f32 0x00000000#32 : (⟨S_, .f32⟩ : BufTy).Contents (Elt F)) reducesTo_S100000x64_S64_d0 h_S_)
    (broadcastInDim S64 ![] bcast_S_S64 (constant S_ .f32 0x47C35000#32 : (⟨S_, .f32⟩ : BufTy).Contents (Elt F)))

def centerT (M : (⟨S100000x64, .f32⟩ : BufTy).Contents (Elt F)) : (⟨S100000x64, .f32⟩ : BufTy).Contents (Elt F) :=
  subf M (rowsOf (colMeanT M))

def colVarT (M : (⟨S100000x64, .f32⟩ : BufTy).Contents (Elt F)) : (⟨S64, .f32⟩ : BufTy).Contents (Elt F) :=
  Host.divf
    (Host.reduceAdd (mulf (centerT M) (centerT M)) (constant S_ .f32 0x00000000#32 : (⟨S_, .f32⟩ : BufTy).Contents (Elt F))
      reducesTo_S100000x64_S64_d0 h_S_)
    (broadcastInDim S64 ![] bcast_S_S64 (constant S_ .f32 0x47C35000#32 : (⟨S_, .f32⟩ : BufTy).Contents (Elt F)))

def bn (M : (⟨S100000x64, .f32⟩ : BufTy).Contents (Elt F)) (g be : (⟨S64, .f32⟩ : BufTy).Contents (Elt F)) :
    (⟨S100000x64, .f32⟩ : BufTy).Contents (Elt F) :=
  addf
    (mulf
      (mulf (centerT M)
        (rowsOf (Host.rsqrt (addf (colVarT M)
          (broadcastInDim S64 ![] bcast_S_S64 (constant S_ .f32 0x3727C5AC#32 : (⟨S_, .f32⟩ : BufTy).Contents (Elt F)))))))
      (rowsOf g))
    (rowsOf be)

def out (e : (⟨S2x3200000, .i32⟩ : BufTy).Contents (Elt F)) (x : (⟨S100000x1024, .f32⟩ : BufTy).Contents (Elt F))
    (w1 : (⟨S1024x16, .f32⟩ : BufTy).Contents (Elt F)) (b1 : (⟨S16, .f32⟩ : BufTy).Contents (Elt F))
    (w2 : (⟨S16x64, .f32⟩ : BufTy).Contents (Elt F)) (b2 : (⟨S64, .f32⟩ : BufTy).Contents (Elt F))
    (mw : (⟨S64x64, .f32⟩ : BufTy).Contents (Elt F)) (mb : (⟨S64, .f32⟩ : BufTy).Contents (Elt F))
    (g be : (⟨S64, .f32⟩ : BufTy).Contents (Elt F)) (wr : (⟨S100000x1, .f32⟩ : BufTy).Contents (Elt F)) :
    (⟨S100000x64, .f32⟩ : BufTy).Contents (Elt F) :=
  lsm (bn (mlp (Cert.KernelIdeal.Glue.agg64T e (l2 (Cert.KernelIdeal.Glue.agg16T e (h1 x w1)) b1 w2)) b2 wr mw mb) g be)

end Cert.ReferenceIdeal.Stages

end
-- ==== Proof.RefRdA.lean ====
import proofs.«405293_j84817014161572_1_alg».proof.Proof.RefParts
import proofs.«405293_j84817014161572_1_alg».proof.Proof.RefStages
import proofs.«405293_j84817014161572_1_alg».proof.Proof.Glue
import Idealize.ShloMosaic.Lib.StableHlo.Run

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

abbrev A_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]

theorem A_writes : (A : List (HloOp τ sig (Elt F))).Forall fun op => op.writes ⊆ (A_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))

theorem A_keep (W : Valuation τ sig (Elt F)) {r : Ref sig .tc} (h : r ∉ A_W) :
    after A W (Proc.devRef .tc r) = W (Proc.devRef .tc r) := after_of_writes_sub A W A_writes h

abbrev B_W : List (Ref sig .tc) := [main_v29]

theorem B_writes : (B : List (HloOp τ sig (Elt F))).Forall fun op => op.writes ⊆ (B_W.map (Proc.devRef (τ := τ) .tc)).toFinset := by
  simp only [List.Forall]
  (simp only [nullary_writes, unary_writes, binary_writes, ternary_writes, quaternary_writes, reshape_writes, binaryIndexed_writes, unaryIndexed_writes, nary_writes, Finset.singleton_subset_iff, List.mem_toFinset]; exact List.mem_map_of_mem (by decide))

theorem B_keep (W : Valuation τ sig (Elt F)) {r : Ref sig .tc} (h : r ∉ B_W) :
    after B W (Proc.devRef .tc r) = W (Proc.devRef .tc r) := after_of_writes_sub B W B_writes h

set_option maxHeartbeats 400000 in

theorem A_v3 (W : Valuation τ sig (Elt F)) :
    after A W (Proc.devRef .tc main_v3) = Cert.KernelIdeal.Glue.srcRaw (W (Proc.devRef .tc main_arg1)) := by
  after_results; rfl

set_option maxHeartbeats 400000 in

theorem A_v6 (W : Valuation τ sig (Elt F)) :
    after A W (Proc.devRef .tc main_v6) = Cert.KernelIdeal.Glue.dstRaw (W (Proc.devRef .tc main_arg1)) := by
  after_results; rfl

set_option maxHeartbeats 400000 in

theorem A_v28 (W : Valuation τ sig (Elt F)) :
    after A W (Proc.devRef .tc main_v28) = Cert.KernelIdeal.Glue.normT (W (Proc.devRef .tc main_arg1)) := by
  after_results_simp; rfl

set_option maxHeartbeats 400000 in

theorem B_v29 (W : Valuation τ sig (Elt F)) :
    after B W (Proc.devRef .tc main_v29) = Stages.h1 (W (Proc.devRef .tc main_arg0)) (W (Proc.devRef .tc main_arg2)) := by
  after_results; rfl

end Cert.ReferenceIdeal.RunH

end
-- ==== Proof.RefRdC.lean ====
import proofs.«405293_j84817014161572_1_alg».proof.Proof.RefParts
import proofs.«405293_j84817014161572_1_alg».proof.Proof.RefStages
import proofs.«405293_j84817014161572_1_alg».proof.Proof.Glue
import Idealize.ShloMosaic.Lib.StableHlo.Run

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

abbrev C_W : List (Ref sig .tc) := [main_c_5, main_v30, main_v31, main_c_6, main_v32, main_v33, main_v34, main_v35, main_v36, main_v37, main_v38, main_v39, main_cst_7, main_v40, main_v41, main_v42]

theorem C_writes : (C : List (HloOp τ sig (Elt F))).Forall fun op => op.writes ⊆ (C_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem C_keep (W : Valuation τ sig (Elt F)) {r : Ref sig .tc} (h : r ∉ C_W) :
    after C W (Proc.devRef .tc r) = W (Proc.devRef .tc r) := after_of_writes_sub C W C_writes h

set_option maxHeartbeats 400000 in

theorem C_v42 (W : Valuation τ sig (Elt F)) : after C W (Proc.devRef .tc main_v42)
    = Cert.KernelIdeal.Glue.agg16C (W (Proc.devRef .tc main_v3)) (W (Proc.devRef .tc main_v6)) (W (Proc.devRef .tc main_v28))
        (W (Proc.devRef .tc main_v29)) := by
  after_results_simp; rfl

abbrev D_W : List (Ref sig .tc) := [main_v43, main_v44, main_v45, main_call0_cst, main_call0_v0, main_v46, main_v47]

theorem D_writes : (D : List (HloOp τ sig (Elt F))).Forall fun op => op.writes ⊆ (D_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem D_keep (W : Valuation τ sig (Elt F)) {r : Ref sig .tc} (h : r ∉ D_W) :
    after D W (Proc.devRef .tc r) = W (Proc.devRef .tc r) := after_of_writes_sub D W D_writes h

set_option maxHeartbeats 400000 in

theorem D_v47 (W : Valuation τ sig (Elt F)) : after D W (Proc.devRef .tc main_v47)
    = Stages.l2 (W (Proc.devRef .tc main_v42)) (W (Proc.devRef .tc main_arg3)) (W (Proc.devRef .tc main_arg4)) := by
  after_results; rfl

abbrev E_W : List (Ref sig .tc) := [main_c_8, main_v48, main_v49, main_c_9, main_v50, main_v51, main_v52, main_v53, main_v54, main_v55, main_v56, main_v57, main_cst_10, main_v58, main_v59, main_v60]

theorem E_writes : (E : List (HloOp τ sig (Elt F))).Forall fun op => op.writes ⊆ (E_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem E_keep (W : Valuation τ sig (Elt F)) {r : Ref sig .tc} (h : r ∉ E_W) :
    after E W (Proc.devRef .tc r) = W (Proc.devRef .tc r) := after_of_writes_sub E W E_writes h

set_option maxHeartbeats 400000 in

theorem E_v60 (W : Valuation τ sig (Elt F)) : after E W (Proc.devRef .tc main_v60)
    = Cert.KernelIdeal.Glue.agg64C (W (Proc.devRef .tc main_v3)) (W (Proc.devRef .tc main_v6)) (W (Proc.devRef .tc main_v28))
        (W (Proc.devRef .tc main_v47)) := by
  after_results_simp; rfl

end Cert.ReferenceIdeal.RunH

end
-- ==== Proof.RefRdH.lean ====
import proofs.«405293_j84817014161572_1_alg».proof.Proof.RefParts
import proofs.«405293_j84817014161572_1_alg».proof.Proof.RefStages
import proofs.«405293_j84817014161572_1_alg».proof.Proof.Glue
import Idealize.ShloMosaic.Lib.StableHlo.Run

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

def rowMaxWith (fred : (⟨S100000x64, .f32⟩ : BufTy).Contents (Elt F) → (⟨S_, .f32⟩ : BufTy).Contents (Elt F) → (⟨S100000, .f32⟩ : BufTy).Contents (Elt F)) (z : (⟨S100000x64, .f32⟩ : BufTy).Contents (Elt F)) : (⟨S100000, .f32⟩ : BufTy).Contents (Elt F) :=
  maximumf (broadcastInDim S100000 ![] bcast_S_S100000 (constant S_ .f32 0xFF800000#32 : (⟨S_, .f32⟩ : BufTy).Contents (Elt F)))
    (fred z (constant S_ .f32 0xFF800000#32 : (⟨S_, .f32⟩ : BufTy).Contents (Elt F)))

def shiftWith (fred : (⟨S100000x64, .f32⟩ : BufTy).Contents (Elt F) → (⟨S_, .f32⟩ : BufTy).Contents (Elt F) → (⟨S100000, .f32⟩ : BufTy).Contents (Elt F)) (z : (⟨S100000x64, .f32⟩ : BufTy).Contents (Elt F)) : (⟨S100000x64, .f32⟩ : BufTy).Contents (Elt F) :=
  subf z (broadcastInDim S100000x64 ![0, 1] bcast_S100000x1_S100000x64_0_1 (broadcastInDim S100000x1 ![0] bcast_S100000_S100000x1_0 (rowMaxWith fred z)))

def lsmWith (fred : (⟨S100000x64, .f32⟩ : BufTy).Contents (Elt F) → (⟨S_, .f32⟩ : BufTy).Contents (Elt F) → (⟨S100000, .f32⟩ : BufTy).Contents (Elt F)) (y : (⟨S100000x64, .f32⟩ : BufTy).Contents (Elt F)) : (⟨S100000x64, .f32⟩ : BufTy).Contents (Elt F) :=
  subf (shiftWith fred y)
    (broadcastInDim S100000x64 ![0, 1] bcast_S100000x1_S100000x64_0_1
      (Host.log (broadcastInDim S100000x1 ![0] bcast_S100000_S100000x1_0
        (Host.reduceAdd (Host.exp (shiftWith fred y)) (constant S_ .f32 0x00000000#32 : (⟨S_, .f32⟩ : BufTy).Contents (Elt F))
          reducesTo_S100000x64_S100000_d1 h_S_))))

abbrev redMax : (⟨S100000x64, .f32⟩ : BufTy).Contents (Elt F) → (⟨S_, .f32⟩ : BufTy).Contents (Elt F) → (⟨S100000, .f32⟩ : BufTy).Contents (Elt F) :=
  fun x v => Host.reduce FloatOps.maximumf x v reducesTo_S100000x64_S100000_d1 h_S_

theorem rowMaxWith_redMax (z : (⟨S100000x64, .f32⟩ : BufTy).Contents (Elt F)) : rowMaxWith redMax z = Stages.rowMaxT z := rfl

theorem shiftWith_redMax (z : (⟨S100000x64, .f32⟩ : BufTy).Contents (Elt F)) : shiftWith redMax z = Stages.shiftT z := by
  unfold shiftWith Stages.shiftT Stages.colsOf
  rw [rowMaxWith_redMax]

theorem lsmWith_redMax (y : (⟨S100000x64, .f32⟩ : BufTy).Contents (Elt F)) : lsmWith redMax y = Stages.lsm y := by
  unfold lsmWith Stages.lsm
  rw [shiftWith_redMax]

abbrev Hgen (fred : (⟨S100000x64, .f32⟩ : BufTy).Contents (Elt F) → (⟨S_, .f32⟩ : BufTy).Contents (Elt F) → (⟨S100000, .f32⟩ : BufTy).Contents (Elt F)) : List (HloOp τ sig (Elt F)) :=
  [ TRef.nullary (TRef.of (T := ⟨S_, .f32⟩) main_call2_cst) (constant S_ .f32 0xFF800000#32),
    TRef.binary (TRef.of (T := ⟨S100000x64, .f32⟩) main_v96) (TRef.of (T := ⟨S_, .f32⟩) main_call2_cst) (TRef.of (T := ⟨S100000, .f32⟩) main_call2_v0) fred,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v96) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v97) subf ]

theorem H_eq_Hgen : (H : List (HloOp τ sig (Elt F))) = Hgen redMax := rfl

set_option maxHeartbeats 400000 in

theorem Hgen_v97 (fred : (⟨S100000x64, .f32⟩ : BufTy).Contents (Elt F) → (⟨S_, .f32⟩ : BufTy).Contents (Elt F) → (⟨S100000, .f32⟩ : BufTy).Contents (Elt F)) (W : Valuation τ sig (Elt F)) :
    after (Hgen fred) W (Proc.devRef .tc main_v97) = lsmWith fred (W (Proc.devRef .tc main_v96)) := by
  after_results
  rfl

theorem H_v97 (W : Valuation τ sig (Elt F)) :
    after H W (Proc.devRef .tc main_v97) = Stages.lsm (W (Proc.devRef .tc main_v96)) := by
  rw [H_eq_Hgen, Hgen_v97, lsmWith_redMax]

abbrev H_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v97]

theorem H_writes : (H : List (HloOp τ sig (Elt F))).Forall fun op => op.writes ⊆ (H_W.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]
     exact List.mem_map_of_mem (by decide))

theorem H_keep (W : Valuation τ sig (Elt F)) {r : Ref sig .tc} (h : r ∉ H_W) :
    after H W (Proc.devRef .tc r) = W (Proc.devRef .tc r) :=
  after_of_writes_sub H W H_writes h

end Cert.ReferenceIdeal.RunH

end
-- ==== Proof.RefRdF.lean ====
import proofs.«405293_j84817014161572_1_alg».proof.Proof.RefParts
import proofs.«405293_j84817014161572_1_alg».proof.Proof.RefStages
import proofs.«405293_j84817014161572_1_alg».proof.Proof.Glue
import proofs.«405293_j84817014161572_1_alg».proof.Proof.RefRdH
import Idealize.ShloMosaic.Lib.StableHlo.Run

set_option maxRecDepth 1032

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

def mlpWith (fred : (⟨S100000x64, .f32⟩ : BufTy).Contents (Elt F) → (⟨S_, .f32⟩ : BufTy).Contents (Elt F) → (⟨S100000, .f32⟩ : BufTy).Contents (Elt F))
    (a2 : (⟨S100000x64, .f32⟩ : BufTy).Contents (Elt F)) (b2 : (⟨S64, .f32⟩ : BufTy).Contents (Elt F))
    (wr : (⟨S100000x1, .f32⟩ : BufTy).Contents (Elt F)) (mw : (⟨S64x64, .f32⟩ : BufTy).Contents (Elt F))
    (mb : (⟨S64, .f32⟩ : BufTy).Contents (Elt F)) : (⟨S100000x64, .f32⟩ : BufTy).Contents (Elt F) :=
  addf
    (Host.dotGeneral dot_S100000x64_S64x64_S100000x64_1_0_0_1_n_n none
      (mulf (broadcastInDim S100000x64 ![0, 1] bcast_S100000x1_S100000x64_0_1 (Host.exp wr)) (lsmWith fred (addf a2 (Stages.rowsOf b2))))
      mw)
    (Stages.rowsOf mb)

theorem mlpWith_redMax (a2 : (⟨S100000x64, .f32⟩ : BufTy).Contents (Elt F)) (b2 : (⟨S64, .f32⟩ : BufTy).Contents (Elt F))
    (wr : (⟨S100000x1, .f32⟩ : BufTy).Contents (Elt F)) (mw : (⟨S64x64, .f32⟩ : BufTy).Contents (Elt F))
    (mb : (⟨S64, .f32⟩ : BufTy).Contents (Elt F)) : mlpWith redMax a2 b2 wr mw mb = Stages.mlp a2 b2 wr mw mb := by
  unfold mlpWith Stages.mlp
  rw [lsmWith_redMax]

abbrev Fsgen (fred : (⟨S100000x64, .f32⟩ : BufTy).Contents (Elt F) → (⟨S_, .f32⟩ : BufTy).Contents (Elt F) → (⟨S100000, .f32⟩ : BufTy).Contents (Elt F)) : List (HloOp τ sig (Elt F)) :=
  [ unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v63) (TRef.of (T := ⟨S_, .f32⟩) main_call1_cst) (TRef.of (T := ⟨S100000, .f32⟩) main_call1_v0) fred,
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v63) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v64) subf,
    unary main_arg10 main_v65 (Host.exp : (⟨S100000x1, .f32⟩ : BufTy).Contents (Elt F) → (⟨S100000x1, .f32⟩ : BufTy).Contents (Elt F)),
    unary main_v65 main_v66 (broadcastInDim S100000x64 ![0, 1] bcast_S100000x1_S100000x64_0_1 : (⟨S100000x1, .f32⟩ : BufTy).Contents (Elt F) → (⟨S100000x64, .f32⟩ : BufTy).Contents (Elt F)),
    binary main_v66 main_v64 main_v67 (mulf : (⟨S100000x64, .f32⟩ : BufTy).Contents (Elt F) → (⟨S100000x64, .f32⟩ : BufTy).Contents (Elt F) → (⟨S100000x64, .f32⟩ : BufTy).Contents (Elt F)),
    binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)) ]

theorem Fs_eq_Fsgen : (Fs : List (HloOp τ sig (Elt F))) = Fsgen redMax := rfl

set_option maxHeartbeats 400000 in

theorem Fsgen_v71 (fred : (⟨S100000x64, .f32⟩ : BufTy).Contents (Elt F) → (⟨S_, .f32⟩ : BufTy).Contents (Elt F) → (⟨S100000, .f32⟩ : BufTy).Contents (Elt F)) (W : Valuation τ sig (Elt F)) :
    after (Fsgen fred) W (Proc.devRef .tc main_v71)
      = mlpWith fred (W (Proc.devRef .tc main_v60)) (W (Proc.devRef .tc main_arg5)) (W (Proc.devRef .tc main_arg10))
          (W (Proc.devRef .tc main_arg6)) (W (Proc.devRef .tc main_arg7)) := by
  after_results_simp
  rfl

theorem Fs_v71 (W : Valuation τ sig (Elt F)) :
    after Fs W (Proc.devRef .tc main_v71)
      = Stages.mlp (W (Proc.devRef .tc main_v60)) (W (Proc.devRef .tc main_arg5)) (W (Proc.devRef .tc main_arg10))
          (W (Proc.devRef .tc main_arg6)) (W (Proc.devRef .tc main_arg7)) := by
  rw [Fs_eq_Fsgen, Fsgen_v71, mlpWith_redMax]

abbrev Fs_W : List (Ref sig .tc) := [main_v61, main_v62, main_v63, main_call1_cst, main_call1_v0, main_call1_cst_0, main_call1_v1, main_call1_v2, main_call1_v3, main_call1_v4, main_call1_v5, main_call1_v6, main_call1_cst_1, main_call1_v7, main_call1_v8, main_call1_v9, main_call1_v10, main_v64, main_v65, main_v66, main_v67, main_v68, main_v69, main_v70, main_v71]

theorem Fs_writes : (Fs : List (HloOp τ sig (Elt F))).Forall fun op => op.writes ⊆ (Fs_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, Finset.singleton_subset_iff, List.mem_toFinset]
    exact List.mem_map_of_mem (by decide)

theorem Fs_keep (W : Valuation τ sig (Elt F)) {r : Ref sig .tc} (h : r ∉ Fs_W) :
    after Fs W (Proc.devRef .tc r) = W (Proc.devRef .tc r) := after_of_writes_sub Fs W Fs_writes h

end Cert.ReferenceIdeal.RunH
-- ==== Proof.RefRdG.lean ====
import proofs.«405293_j84817014161572_1_alg».proof.Proof.RefParts
import proofs.«405293_j84817014161572_1_alg».proof.Proof.RefStages
import proofs.«405293_j84817014161572_1_alg».proof.Proof.Glue
import Idealize.ShloMosaic.Lib.StableHlo.Run

set_option maxRecDepth 1032

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

theorem G_v96 (W : Valuation τ sig (Elt F)) : after G W (Proc.devRef .tc main_v96)
    = Stages.bn (W (Proc.devRef .tc main_v71)) (W (Proc.devRef .tc main_arg8)) (W (Proc.devRef .tc main_arg9)) := by
  after_results_simp; rfl

abbrev G_W : List (Ref sig .tc) := [main_cst_11, main_v72, main_cst_12, main_v73, main_v74, main_v75, main_v76, main_v77, main_v78, main_cst_13, main_v79, main_cst_14, main_v80, main_v81, main_v82, main_v83, main_v84, main_cst_15, main_v85, main_v86, main_v87, main_v88, main_v89, main_v90, main_v91, main_v92, main_v93, main_v94, main_v95, main_v96]

theorem G_writes : (G : List (HloOp τ sig (Elt F))).Forall fun op => op.writes ⊆ (G_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [StableHlo.nullary_writes, StableHlo.unary_writes, StableHlo.binary_writes, Finset.singleton_subset_iff, List.mem_toFinset]
    exact List.mem_map_of_mem (by decide)

theorem G_keep (W : Valuation τ sig (Elt F)) {r : Ref sig .tc} (h : r ∉ G_W) :
    after G W (Proc.devRef .tc r) = W (Proc.devRef .tc r) := after_of_writes_sub G W G_writes h

end Cert.ReferenceIdeal.RunH
-- ==== Proof.RefRunH.lean ====
import proofs.«405293_j84817014161572_1_alg».proof.Proof.RefParts
import proofs.«405293_j84817014161572_1_alg».proof.Proof.RefStages
import proofs.«405293_j84817014161572_1_alg».proof.Proof.RefRdA
import proofs.«405293_j84817014161572_1_alg».proof.Proof.RefRdC
import proofs.«405293_j84817014161572_1_alg».proof.Proof.RefRdF
import proofs.«405293_j84817014161572_1_alg».proof.Proof.RefRdG
import proofs.«405293_j84817014161572_1_alg».proof.Proof.RefRdH

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev V1 (W : Valuation τ sig (Elt F)) : Valuation τ sig (Elt F) := after A (W)

abbrev V2 (W : Valuation τ sig (Elt F)) : Valuation τ sig (Elt F) := after B (V1 W)

abbrev V3 (W : Valuation τ sig (Elt F)) : Valuation τ sig (Elt F) := after C (V2 W)

abbrev V4 (W : Valuation τ sig (Elt F)) : Valuation τ sig (Elt F) := after D (V3 W)

abbrev V5 (W : Valuation τ sig (Elt F)) : Valuation τ sig (Elt F) := after E (V4 W)

abbrev V6 (W : Valuation τ sig (Elt F)) : Valuation τ sig (Elt F) := after Fs (V5 W)

abbrev V7 (W : Valuation τ sig (Elt F)) : Valuation τ sig (Elt F) := after G (V6 W)

abbrev V8 (W : Valuation τ sig (Elt F)) : Valuation τ sig (Elt F) := after H (V7 W)

theorem ops_after (W : Valuation τ sig (Elt F)) : after (ValueP.ops : List (HloOp τ sig (Elt F))) W = V8 W := by
  simp only [ValueP.ops, StableHlo.after_append]

abbrev args : List (Ref sig .tc) :=
  [main_arg0, main_arg1, main_arg2, main_arg3, main_arg4, main_arg5, main_arg6, main_arg7, main_arg8, main_arg9, main_arg10]

-- no stretch writes an argument
theorem V1_arg (W : Valuation τ sig (Elt F)) (b : Ref sig .tc) (hb : b ∈ args) : V1 W (Proc.devRef .tc b) = W (Proc.devRef .tc b) :=
  A_keep W ((by decide : ∀ b ∈ args, b ∉ A_W) b hb)
theorem V2_arg (W : Valuation τ sig (Elt F)) (b : Ref sig .tc) (hb : b ∈ args) : V2 W (Proc.devRef .tc b) = W (Proc.devRef .tc b) :=
  (B_keep (V1 W) ((by decide : ∀ b ∈ args, b ∉ B_W) b hb)).trans (V1_arg W b hb)
theorem V3_arg (W : Valuation τ sig (Elt F)) (b : Ref sig .tc) (hb : b ∈ args) : V3 W (Proc.devRef .tc b) = W (Proc.devRef .tc b) :=
  (C_keep (V2 W) ((by decide : ∀ b ∈ args, b ∉ C_W) b hb)).trans (V2_arg W b hb)
theorem V4_arg (W : Valuation τ sig (Elt F)) (b : Ref sig .tc) (hb : b ∈ args) : V4 W (Proc.devRef .tc b) = W (Proc.devRef .tc b) :=
  (D_keep (V3 W) ((by decide : ∀ b ∈ args, b ∉ D_W) b hb)).trans (V3_arg W b hb)
theorem V5_arg (W : Valuation τ sig (Elt F)) (b : Ref sig .tc) (hb : b ∈ args) : V5 W (Proc.devRef .tc b) = W (Proc.devRef .tc b) :=
  (E_keep (V4 W) ((by decide : ∀ b ∈ args, b ∉ E_W) b hb)).trans (V4_arg W b hb)
theorem V6_arg (W : Valuation τ sig (Elt F)) (b : Ref sig .tc) (hb : b ∈ args) : V6 W (Proc.devRef .tc b) = W (Proc.devRef .tc b) :=
  (Fs_keep (V5 W) ((by decide : ∀ b ∈ args, b ∉ Fs_W) b hb)).trans (V5_arg W b hb)
theorem V7_arg (W : Valuation τ sig (Elt F)) (b : Ref sig .tc) (hb : b ∈ args) : V7 W (Proc.devRef .tc b) = W (Proc.devRef .tc b) :=
  (G_keep (V6 W) ((by decide : ∀ b ∈ args, b ∉ G_W) b hb)).trans (V6_arg W b hb)
theorem V8_arg (W : Valuation τ sig (Elt F)) (b : Ref sig .tc) (hb : b ∈ args) : V8 W (Proc.devRef .tc b) = W (Proc.devRef .tc b) :=
  (H_keep (V7 W) ((by decide : ∀ b ∈ args, b ∉ H_W) b hb)).trans (V7_arg W b hb)

theorem V1_main_v3 (W : Valuation τ sig (Elt F)) : V1 W (Proc.devRef .tc main_v3) = Cert.KernelIdeal.Glue.srcRaw (W (Proc.devRef .tc main_arg1)) :=
  A_v3 (W)
theorem V1_main_v6 (W : Valuation τ sig (Elt F)) : V1 W (Proc.devRef .tc main_v6) = Cert.KernelIdeal.Glue.dstRaw (W (Proc.devRef .tc main_arg1)) :=
  A_v6 (W)
theorem V1_main_v28 (W : Valuation τ sig (Elt F)) : V1 W (Proc.devRef .tc main_v28) = Cert.KernelIdeal.Glue.normT (W (Proc.devRef .tc main_arg1)) :=
  A_v28 (W)
abbrev edgeRefs : List (Ref sig .tc) := [main_v3, main_v6, main_v28]

-- the edge lists and the edge weights are written by the first stretch only
theorem V2_edge (W : Valuation τ sig (Elt F)) (b : Ref sig .tc) (hb : b ∈ edgeRefs) : V2 W (Proc.devRef .tc b) = V1 W (Proc.devRef .tc b) :=
  B_keep (V1 W) ((by decide : ∀ b ∈ edgeRefs, b ∉ B_W) b hb)
theorem V4_edge (W : Valuation τ sig (Elt F)) (b : Ref sig .tc) (hb : b ∈ edgeRefs) : V4 W (Proc.devRef .tc b) = V1 W (Proc.devRef .tc b) :=
  (D_keep (V3 W) ((by decide : ∀ b ∈ edgeRefs, b ∉ D_W) b hb)).trans
    ((C_keep (V2 W) ((by decide : ∀ b ∈ edgeRefs, b ∉ C_W) b hb)).trans (V2_edge W b hb))
theorem V2_main_v29 (W : Valuation τ sig (Elt F)) : V2 W (Proc.devRef .tc main_v29) = Stages.h1 (W (Proc.devRef .tc main_arg0)) (W (Proc.devRef .tc main_arg2)) :=
  (B_v29 (V1 W)).trans (by rw [V1_arg W main_arg0 (by decide), V1_arg W main_arg2 (by decide)])
theorem V3_main_v42 (W : Valuation τ sig (Elt F)) : V3 W (Proc.devRef .tc main_v42) = Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2))) :=
  (C_v42 (V2 W)).trans (by rw [V2_edge W main_v3 (by decide), V2_edge W main_v6 (by decide), V2_edge W main_v28 (by decide), V1_main_v3 W, V1_main_v6 W, V1_main_v28 W, V2_main_v29 W])
theorem V4_main_v47 (W : Valuation τ sig (Elt F)) : V4 W (Proc.devRef .tc main_v47) = Stages.l2 (Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2)))) (W (Proc.devRef .tc main_arg3)) (W (Proc.devRef .tc main_arg4)) :=
  (D_v47 (V3 W)).trans (by rw [V3_main_v42 W, V3_arg W main_arg3 (by decide), V3_arg W main_arg4 (by decide)])
theorem V5_main_v60 (W : Valuation τ sig (Elt F)) : V5 W (Proc.devRef .tc main_v60) = Cert.KernelIdeal.Glue.agg64C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.l2 (Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2)))) (W (Proc.devRef .tc main_arg3)) (W (Proc.devRef .tc main_arg4))) :=
  (E_v60 (V4 W)).trans (by rw [V4_edge W main_v3 (by decide), V4_edge W main_v6 (by decide), V4_edge W main_v28 (by decide), V1_main_v3 W, V1_main_v6 W, V1_main_v28 W, V4_main_v47 W])
theorem V6_main_v71 (W : Valuation τ sig (Elt F)) : V6 W (Proc.devRef .tc main_v71) = Stages.mlp (Cert.KernelIdeal.Glue.agg64C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.l2 (Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2)))) (W (Proc.devRef .tc main_arg3)) (W (Proc.devRef .tc main_arg4)))) (W (Proc.devRef .tc main_arg5)) (W (Proc.devRef .tc main_arg10)) (W (Proc.devRef .tc main_arg6)) (W (Proc.devRef .tc main_arg7)) :=
  (Fs_v71 (V5 W)).trans (by rw [V5_main_v60 W, V5_arg W main_arg5 (by decide), V5_arg W main_arg10 (by decide), V5_arg W main_arg6 (by decide), V5_arg W main_arg7 (by decide)])
theorem V7_main_v96 (W : Valuation τ sig (Elt F)) : V7 W (Proc.devRef .tc main_v96) = Stages.bn (Stages.mlp (Cert.KernelIdeal.Glue.agg64C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.l2 (Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2)))) (W (Proc.devRef .tc main_arg3)) (W (Proc.devRef .tc main_arg4)))) (W (Proc.devRef .tc main_arg5)) (W (Proc.devRef .tc main_arg10)) (W (Proc.devRef .tc main_arg6)) (W (Proc.devRef .tc main_arg7))) (W (Proc.devRef .tc main_arg8)) (W (Proc.devRef .tc main_arg9)) :=
  (G_v96 (V6 W)).trans (by rw [V6_main_v71 W, V6_arg W main_arg8 (by decide), V6_arg W main_arg9 (by decide)])
theorem V8_main_v97 (W : Valuation τ sig (Elt F)) : V8 W (Proc.devRef .tc main_v97) = Stages.lsm (Stages.bn (Stages.mlp (Cert.KernelIdeal.Glue.agg64C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.l2 (Cert.KernelIdeal.Glue.agg16C (Cert.KernelIdeal.Glue.srcRaw (W (Proc.devRef .tc main_arg1))) (Cert.KernelIdeal.Glue.dstRaw (W (Proc.devRef .tc main_arg1))) (Cert.KernelIdeal.Glue.normT (W (Proc.devRef .tc main_arg1))) (Stages.h1 (W (Proc.devRef .tc main_arg0)) (W (Proc.devRef .tc main_arg2)))) (W (Proc.devRef .tc main_arg3)) (W (Proc.devRef .tc main_arg4)))) (W (Proc.devRef .tc main_arg5)) (W (Proc.devRef .tc main_arg10)) (W (Proc.devRef .tc main_arg6)) (W (Proc.devRef .tc main_arg7))) (W (Proc.devRef .tc main_arg8)) (W (Proc.devRef .tc main_arg9))) :=
  (H_v97 (V7 W)).trans (by rw [V7_main_v96 W])

theorem after_ops_v97 (W : Valuation τ sig (Elt F)) :
    after (ValueP.ops : List (HloOp τ sig (Elt F))) W (Proc.devRef .tc main_v97)
      = Stages.out (W (Proc.devRef .tc main_arg1)) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_after, V8_main_v97]; rfl

theorem after_ops_arg (W : Valuation τ sig (Elt F)) (b : Ref sig .tc) (hb : b ∈ args) :
    after (ValueP.ops : List (HloOp τ sig (Elt F))) W (Proc.devRef .tc b) = W (Proc.devRef .tc b) := by
  rw [ops_after]; exact V8_arg W b hb

theorem ops_fresh : (ValueP.ops : List (HloOp τ sig (Elt F))).Forall fun op => op.fresh = ∅ := by
  simp only [ValueP.ops, A, B, C, D, E, Fs, G, H, List.cons_append, List.nil_append, List.Forall]; repeat' constructor

theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v97) = Stages.out (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v97).trans (after_ops_v97 _),
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide))⟩)
    (run_seq ValueP.scopedRefs_eq ValueP.scopedSems_eq defs main (fun _ => ValueP.ops) ValueP.main_eq (fun _ => ValueP.ops_sub) m ρ
      (fun _ op hop => (List.forall_iff_forall_mem.mp ops_fresh) op hop))

end Cert.ReferenceIdeal.RunH

end
-- ==== Proof.RefVal.lean ====
import proofs.«405293_j84817014161572_1_alg».proof.Proof.RefStages
import proofs.«405293_j84817014161572_1_alg».proof.Proof.AggFn
import proofs.«405293_j84817014161572_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.Gen Idealize.ShloMosaic Idealize.ShloMosaic.ValueIdx Gcn

namespace Coords

theorem lhs_d0_0 (i : S100000x16.Idx) (q : dot_S100000x1024_S1024x16_S100000x16_1_0_0_1_n_n.contr.Idx) :
    (dot_S100000x1024_S1024x16_S100000x16_1_0_0_1_n_n.lhsIdx i q 0).val = (i 0).val := by
  unfold DotDims.lhsIdx
  rw [dif_neg (show ¬(0 : Fin S100000x1024.rank) ∈ dot_S100000x1024_S1024x16_S100000x16_1_0_0_1_n_n.lhsBatch by decide), dif_pos (show (0 : Fin S100000x1024.rank) ∈ dot_S100000x1024_S1024x16_S100000x16_1_0_0_1_n_n.lhsNonContracting by decide)]
  rfl
theorem lhs_d0_1 (i : S100000x16.Idx) (q : dot_S100000x1024_S1024x16_S100000x16_1_0_0_1_n_n.contr.Idx) :
    (dot_S100000x1024_S1024x16_S100000x16_1_0_0_1_n_n.lhsIdx i q 1).val = (q ⟨0, by decide⟩).val :=
  dot_S100000x1024_S1024x16_S100000x16_1_0_0_1_n_n.lhsIdx_val_of_single rfl i q
theorem rhs_d0_0 (i : S100000x16.Idx) (q : dot_S100000x1024_S1024x16_S100000x16_1_0_0_1_n_n.contr.Idx) :
    (dot_S100000x1024_S1024x16_S100000x16_1_0_0_1_n_n.rhsIdx i q 0).val = (q ⟨0, by decide⟩).val :=
  dot_S100000x1024_S1024x16_S100000x16_1_0_0_1_n_n.rhsIdx_val_of_single rfl i q
theorem rhs_d0_1 (i : S100000x16.Idx) (q : dot_S100000x1024_S1024x16_S100000x16_1_0_0_1_n_n.contr.Idx) :
    (dot_S100000x1024_S1024x16_S100000x16_1_0_0_1_n_n.rhsIdx i q 1).val = (i 1).val := by
  unfold DotDims.rhsIdx
  rw [dif_neg (show ¬(1 : Fin S1024x16.rank) ∈ dot_S100000x1024_S1024x16_S100000x16_1_0_0_1_n_n.rhsBatch by decide), dif_pos (show (1 : Fin S1024x16.rank) ∈ dot_S100000x1024_S1024x16_S100000x16_1_0_0_1_n_n.rhsNonContracting by decide)]
  rfl

theorem lidx_d0 (r : Fin 100000) (j : Fin 16) (k : Fin 1024) :
    dot_S100000x1024_S1024x16_S100000x16_1_0_0_1_n_n.lhsIdx (ix2 r j) ((contrEquiv1 dot_S100000x1024_S1024x16_S100000x16_1_0_0_1_n_n 1024 rfl rfl).symm k) = ix2 r k :=
  funext fun a => Fin.ext (by
    have hk := contrEquiv1_symm_val dot_S100000x1024_S1024x16_S100000x16_1_0_0_1_n_n 1024 rfl rfl k
    match a with
    | ⟨0, _⟩ => exact lhs_d0_0 _ _
    | ⟨1, _⟩ => exact (lhs_d0_1 _ _).trans hk)

theorem ridx_d0 (r : Fin 100000) (j : Fin 16) (k : Fin 1024) :
    dot_S100000x1024_S1024x16_S100000x16_1_0_0_1_n_n.rhsIdx (ix2 r j) ((contrEquiv1 dot_S100000x1024_S1024x16_S100000x16_1_0_0_1_n_n 1024 rfl rfl).symm k) = ix2 k j :=
  funext fun a => Fin.ext (by
    have hk := contrEquiv1_symm_val dot_S100000x1024_S1024x16_S100000x16_1_0_0_1_n_n 1024 rfl rfl k
    match a with
    | ⟨0, _⟩ => exact (rhs_d0_0 _ _).trans hk
    | ⟨1, _⟩ => exact rhs_d0_1 _ _)

theorem dot_d0_apply (l : FVec Ideal S100000x1024 .f32) (w : FVec Ideal S1024x16 .f32) (r : Fin 100000) (j : Fin 16) :
    Host.dotGeneral (F := Ideal) dot_S100000x1024_S1024x16_S100000x16_1_0_0_1_n_n none l w (ix2 r j) = ∑ k : Fin 1024, l (ix2 r k) * w (ix2 k j) := by
  refine (Ideal.dotGeneral_apply dot_S100000x1024_S1024x16_S100000x16_1_0_0_1_n_n none _ l w (ix2 r j)).trans ?_
  refine (Equiv.sum_comp (contrEquiv1 dot_S100000x1024_S1024x16_S100000x16_1_0_0_1_n_n 1024 rfl rfl).symm _).symm.trans ?_
  refine Finset.sum_congr rfl fun k _ => ?_
  rw [lidx_d0 r j k, ridx_d0 r j k]

theorem lhs_d1_0 (i : S100000x64.Idx) (q : dot_S100000x16_S16x64_S100000x64_1_0_0_1_n_n.contr.Idx) :
    (dot_S100000x16_S16x64_S100000x64_1_0_0_1_n_n.lhsIdx i q 0).val = (i 0).val := by
  unfold DotDims.lhsIdx
  rw [dif_neg (show ¬(0 : Fin S100000x16.rank) ∈ dot_S100000x16_S16x64_S100000x64_1_0_0_1_n_n.lhsBatch by decide), dif_pos (show (0 : Fin S100000x16.rank) ∈ dot_S100000x16_S16x64_S100000x64_1_0_0_1_n_n.lhsNonContracting by decide)]
  rfl
theorem lhs_d1_1 (i : S100000x64.Idx) (q : dot_S100000x16_S16x64_S100000x64_1_0_0_1_n_n.contr.Idx) :
    (dot_S100000x16_S16x64_S100000x64_1_0_0_1_n_n.lhsIdx i q 1).val = (q ⟨0, by decide⟩).val :=
  dot_S100000x16_S16x64_S100000x64_1_0_0_1_n_n.lhsIdx_val_of_single rfl i q
theorem rhs_d1_0 (i : S100000x64.Idx) (q : dot_S100000x16_S16x64_S100000x64_1_0_0_1_n_n.contr.Idx) :
    (dot_S100000x16_S16x64_S100000x64_1_0_0_1_n_n.rhsIdx i q 0).val = (q ⟨0, by decide⟩).val :=
  dot_S100000x16_S16x64_S100000x64_1_0_0_1_n_n.rhsIdx_val_of_single rfl i q
theorem rhs_d1_1 (i : S100000x64.Idx) (q : dot_S100000x16_S16x64_S100000x64_1_0_0_1_n_n.contr.Idx) :
    (dot_S100000x16_S16x64_S100000x64_1_0_0_1_n_n.rhsIdx i q 1).val = (i 1).val := by
  unfold DotDims.rhsIdx
  rw [dif_neg (show ¬(1 : Fin S16x64.rank) ∈ dot_S100000x16_S16x64_S100000x64_1_0_0_1_n_n.rhsBatch by decide), dif_pos (show (1 : Fin S16x64.rank) ∈ dot_S100000x16_S16x64_S100000x64_1_0_0_1_n_n.rhsNonContracting by decide)]
  rfl

theorem lidx_d1 (r : Fin 100000) (j : Fin 64) (k : Fin 16) :
    dot_S100000x16_S16x64_S100000x64_1_0_0_1_n_n.lhsIdx (ix2 r j) ((contrEquiv1 dot_S100000x16_S16x64_S100000x64_1_0_0_1_n_n 16 rfl rfl).symm k) = ix2 r k :=
  funext fun a => Fin.ext (by
    have hk := contrEquiv1_symm_val dot_S100000x16_S16x64_S100000x64_1_0_0_1_n_n 16 rfl rfl k
    match a with
    | ⟨0, _⟩ => exact lhs_d1_0 _ _
    | ⟨1, _⟩ => exact (lhs_d1_1 _ _).trans hk)

theorem ridx_d1 (r : Fin 100000) (j : Fin 64) (k : Fin 16) :
    dot_S100000x16_S16x64_S100000x64_1_0_0_1_n_n.rhsIdx (ix2 r j) ((contrEquiv1 dot_S100000x16_S16x64_S100000x64_1_0_0_1_n_n 16 rfl rfl).symm k) = ix2 k j :=
  funext fun a => Fin.ext (by
    have hk := contrEquiv1_symm_val dot_S100000x16_S16x64_S100000x64_1_0_0_1_n_n 16 rfl rfl k
    match a with
    | ⟨0, _⟩ => exact (rhs_d1_0 _ _).trans hk
    | ⟨1, _⟩ => exact rhs_d1_1 _ _)

theorem dot_d1_apply (l : FVec Ideal S100000x16 .f32) (w : FVec Ideal S16x64 .f32) (r : Fin 100000) (j : Fin 64) :
    Host.dotGeneral (F := Ideal) dot_S100000x16_S16x64_S100000x64_1_0_0_1_n_n none l w (ix2 r j) = ∑ k : Fin 16, l (ix2 r k) * w (ix2 k j) := by
  refine (Ideal.dotGeneral_apply dot_S100000x16_S16x64_S100000x64_1_0_0_1_n_n none _ l w (ix2 r j)).trans ?_
  refine (Equiv.sum_comp (contrEquiv1 dot_S100000x16_S16x64_S100000x64_1_0_0_1_n_n 16 rfl rfl).symm _).symm.trans ?_
  refine Finset.sum_congr rfl fun k _ => ?_
  rw [lidx_d1 r j k, ridx_d1 r j k]

theorem lhs_d2_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_d2_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_d2_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_d2_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem lidx_d2 (r : Fin 100000) (j : Fin 64) (k : Fin 64) :
    dot_S100000x64_S64x64_S100000x64_1_0_0_1_n_n.lhsIdx (ix2 r j) ((contrEquiv1 dot_S100000x64_S64x64_S100000x64_1_0_0_1_n_n 64 rfl rfl).symm k) = ix2 r k :=
  funext fun a => Fin.ext (by
    have hk := contrEquiv1_symm_val dot_S100000x64_S64x64_S100000x64_1_0_0_1_n_n 64 rfl rfl k
    match a with
    | ⟨0, _⟩ => exact lhs_d2_0 _ _
    | ⟨1, _⟩ => exact (lhs_d2_1 _ _).trans hk)

theorem ridx_d2 (r : Fin 100000) (j : Fin 64) (k : Fin 64) :
    dot_S100000x64_S64x64_S100000x64_1_0_0_1_n_n.rhsIdx (ix2 r j) ((contrEquiv1 dot_S100000x64_S64x64_S100000x64_1_0_0_1_n_n 64 rfl rfl).symm k) = ix2 k j :=
  funext fun a => Fin.ext (by
    have hk := contrEquiv1_symm_val dot_S100000x64_S64x64_S100000x64_1_0_0_1_n_n 64 rfl rfl k
    match a with
    | ⟨0, _⟩ => exact (rhs_d2_0 _ _).trans hk
    | ⟨1, _⟩ => exact rhs_d2_1 _ _)

theorem dot_d2_apply (l : FVec Ideal S100000x64 .f32) (w : FVec Ideal S64x64 .f32) (r : Fin 100000) (j : Fin 64) :
    Host.dotGeneral (F := Ideal) dot_S100000x64_S64x64_S100000x64_1_0_0_1_n_n none l w (ix2 r j) = ∑ k : Fin 64, l (ix2 r k) * w (ix2 k j) := by
  refine (Ideal.dotGeneral_apply dot_S100000x64_S64x64_S100000x64_1_0_0_1_n_n none _ l w (ix2 r j)).trans ?_
  refine (Equiv.sum_comp (contrEquiv1 dot_S100000x64_S64x64_S100000x64_1_0_0_1_n_n 64 rfl rfl).symm _).symm.trans ?_
  refine Finset.sum_congr rfl fun k _ => ?_
  rw [lidx_d2 r j k, ridx_d2 r j k]

theorem bias16_apply (b1 : (⟨S16, .f32⟩ : BufTy).Contents (Elt Ideal)) (r : Fin 100000) (j : Fin 16) :
    broadcastInDim S100000x16 ![0, 1] bcast_S1x16_S100000x16_0_1 (broadcastInDim S1x16 ![1] bcast_S16_S1x16_1 b1) (ix2 r j) = b1 (ix1 j) := by
  refine (broadcastInDim_apply _ bcast_S1x16_S100000x16_0_1 _ (ix2 r j) (ix2 (0 : Fin 1) j) (fun a => match a with
    | ⟨0, _⟩ => by show 0 = if (1 : Nat) = 1 then 0 else r.val; rw [if_pos rfl]
    | ⟨1, _⟩ => by show j.val = if (16 : Nat) = 1 then 0 else j.val; rw [if_neg (by decide)])).trans ?_
  exact broadcastInDim_apply _ bcast_S16_S1x16_1 b1 (ix2 (0 : Fin 1) j) (ix1 j) (fun a => match a with
    | ⟨0, _⟩ => by show j.val = if (16 : Nat) = 1 then 0 else j.val; rw [if_neg (by decide)])

theorem rowsOf_apply (v : (⟨S64, .f32⟩ : BufTy).Contents (Elt Ideal)) (r : Fin 100000) (j : Fin 64) :
    Stages.rowsOf (F := Ideal) v (ix2 r j) = v (ix1 j) := by
  unfold Stages.rowsOf
  refine (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 v (ix2 (0 : Fin 1) j) (ix1 j) (fun a => match a with
    | ⟨0, _⟩ => by show j.val = if (64 : Nat) = 1 then 0 else j.val; rw [if_neg (by decide)])

theorem col_apply (c : (⟨S100000x1, .f32⟩ : BufTy).Contents (Elt Ideal)) (r : Fin 100000) (j : Fin 64) :
    broadcastInDim S100000x64 ![0, 1] bcast_S100000x1_S100000x64_0_1 c (ix2 r j) = c (ix2 r (0 : Fin 1)) :=
  broadcastInDim_apply _ bcast_S100000x1_S100000x64_0_1 c (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

theorem asCol_apply (v : (⟨S100000, .f32⟩ : BufTy).Contents (Elt Ideal)) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

theorem colsOf_apply (v : (⟨S100000, .f32⟩ : BufTy).Contents (Elt Ideal)) (r : Fin 100000) (j : Fin 64) :
    Stages.colsOf (F := Ideal) v (ix2 r j) = v (ix1 r) := by
  unfold Stages.colsOf
  exact (col_apply _ r j).trans (asCol_apply v r)

theorem ofBits_neg_inf : Ideal.ofBits .f32 0xFF800000#32 = (⊥ : EReal) := by
  simp [Ideal.ofBits, Ideal.ieee]

theorem rowSum_apply (z : (⟨S100000x64, .f32⟩ : BufTy).Contents (Elt Ideal)) (r : Fin 100000) :
    Host.reduceAdd (F := Ideal) z (constant (F := Ideal) S_ .f32 0x00000000#32)
      reducesTo_S100000x64_S100000_d1 h_S_ (ix1 r) = ∑ k : Fin 64, z (ix2 r k) := by
  simp only [Host.reduceAdd, Ideal.hostReduceAdd_def]
  rw [Ideal.hostReduceAdd_single reducesTo_S100000x64_S100000_d1 (by decide)]
  refine (congrArg (· + _) Ideal.ofBits_zero_f32).trans ((zero_add _).trans ?_)
  refine Finset.sum_congr rfl fun k _ => ?_
  exact congrArg z (funext fun a => Fin.ext (by match a with | ⟨0, _⟩ => rfl | ⟨1, _⟩ => rfl))

set_option maxRecDepth 8192 in

theorem rowMaxRed_apply (z : (⟨S100000x64, .f32⟩ : BufTy).Contents (Elt Ideal)) (r : Fin 100000) :
    Host.reduce (FloatOps.maximumf (F := Ideal) (φ := .f32)) z (constant (F := Ideal) S_ .f32 0xFF800000#32)
      reducesTo_S100000x64_S100000_d1 h_S_ (ix1 r) = Finset.univ.sup fun k : Fin 64 => z (ix2 r k) := by
  have hR : S100000x64.Reduces [1] S100000 := by decide
  have hz : z ∘ hR.lift (ix1 r) = fun k : Fin 64 => z (ix2 r k) :=
    funext fun k => congrArg z (funext fun a => Fin.ext (by match a with | ⟨0, _⟩ => rfl | ⟨1, _⟩ => rfl))
  refine (Host.reduce_eq_fold_single (FloatOps.maximumf (F := Ideal) (φ := .f32)) z _ reducesTo_S100000x64_S100000_d1 hR h_S_ (ix1 r)).trans ?_
  show (Finset.univ : Finset (Fin 64)).fold max (Ideal.ofBits .f32 0xFF800000#32) (z ∘ hR.lift (ix1 r)) = _
  rw [ofBits_neg_inf, hz]
  rfl

theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

theorem rowMaxT_apply (z : (⟨S100000x64, .f32⟩ : BufTy).Contents (Elt Ideal)) (r : Fin 100000) :
    Stages.rowMaxT (F := Ideal) z (ix1 r) = rowMax (fn2 z r) := by
  unfold Stages.rowMaxT
  refine (maximumf_apply _ _ _).trans ?_
  refine (congrArg₂ max ofBits_neg_inf (rowMaxRed_apply z r)).trans ?_
  exact max_eq_right bot_le

theorem shiftT_apply (z : (⟨S100000x64, .f32⟩ : BufTy).Contents (Elt Ideal)) (r : Fin 100000) (j : Fin 64) :
    Stages.shiftT (F := Ideal) z (ix2 r j) = fn2 z r j - rowMax (fn2 z r) := by
  unfold Stages.shiftT
  refine (subf_apply _ _ _).trans ?_
  exact congrArg₂ (· - ·) rfl ((colsOf_apply _ r j).trans (rowMaxT_apply z r))

theorem lsm_apply (y : (⟨S100000x64, .f32⟩ : BufTy).Contents (Elt Ideal)) (r : Fin 100000) (j : Fin 64) :
    Stages.lsm (F := Ideal) y (ix2 r j) = lsmR (fn2 y r) j := by
  unfold Stages.lsm
  refine (subf_apply _ _ _).trans ?_
  refine congrArg₂ (· - ·) (shiftT_apply y r j) ?_
  refine (col_apply _ r j).trans ?_
  refine (hostLog_apply _ _).trans (congrArg Ideal.log ?_)
  refine (asCol_apply _ r).trans ?_
  refine (rowSum_apply _ r).trans ?_
  refine Finset.sum_congr rfl fun k _ => ?_
  exact (hostExp_apply _ _).trans (congrArg Ideal.exp (shiftT_apply y r k))

theorem colSum_apply (z : (⟨S100000x64, .f32⟩ : BufTy).Contents (Elt Ideal)) (j : Fin 64) :
    Host.reduceAdd (F := Ideal) z (constant (F := Ideal) S_ .f32 0x00000000#32)
      reducesTo_S100000x64_S64_d0 h_S_ (ix1 j) = ∑ k : Fin 100000, z (ix2 k j) := by
  simp only [Host.reduceAdd, Ideal.hostReduceAdd_def]
  rw [Ideal.hostReduceAdd_single reducesTo_S100000x64_S64_d0 (by decide)]
  refine (congrArg (· + _) Ideal.ofBits_zero_f32).trans ((zero_add _).trans ?_)
  refine Finset.sum_congr rfl fun k _ => ?_
  exact congrArg z (funext fun a => Fin.ext (by match a with | ⟨0, _⟩ => rfl | ⟨1, _⟩ => rfl))

theorem hostDivf_apply {s : Shape} (x y : FVec Ideal s .f32) (i : s.Idx) : Host.divf x y i = Ideal.div (x i) (y i) := rfl

theorem hostRsqrt_apply {s : Shape} (x : FVec Ideal s .f32) (i : s.Idx) : Host.rsqrt x i = Ideal.rsqrt (x i) := rfl

theorem colMeanT_apply (M : (⟨S100000x64, .f32⟩ : BufTy).Contents (Elt Ideal)) (j : Fin 64) :
    Stages.colMeanT (F := Ideal) M (ix1 j) = colMean (fn2 M) j := by
  unfold Stages.colMeanT
  refine (hostDivf_apply _ _ _).trans ?_
  exact congrArg₂ Ideal.div (colSum_apply M j) rfl

theorem centerT_apply (M : (⟨S100000x64, .f32⟩ : BufTy).Contents (Elt Ideal)) (r : Fin 100000) (j : Fin 64) :
    Stages.centerT (F := Ideal) M (ix2 r j) = fn2 M r j - colMean (fn2 M) j := by
  unfold Stages.centerT
  refine (subf_apply _ _ _).trans ?_
  exact congrArg₂ (· - ·) rfl ((rowsOf_apply _ r j).trans (colMeanT_apply M j))

theorem colVarT_apply (M : (⟨S100000x64, .f32⟩ : BufTy).Contents (Elt Ideal)) (j : Fin 64) :
    Stages.colVarT (F := Ideal) M (ix1 j) = varR (fn2 M) j := by
  unfold Stages.colVarT
  refine (hostDivf_apply _ _ _).trans ?_
  refine congrArg₂ Ideal.div ((colSum_apply _ j).trans ?_) rfl
  refine Finset.sum_congr rfl fun r _ => ?_
  exact (mulf_apply _ _ _).trans (congrArg₂ (· * ·) (centerT_apply M r j) (centerT_apply M r j))

end Coords

theorem h1_val (x : (⟨S100000x1024, .f32⟩ : BufTy).Contents (Elt Ideal)) (w1 : (⟨S1024x16, .f32⟩ : BufTy).Contents (Elt Ideal)) :
    fn2 (Stages.h1 (F := Ideal) x w1) = mm (fn2 x) (fn2 w1) := by
  funext r j
  exact Coords.dot_d0_apply x w1 r j

theorem l2_val (a1 : (⟨S100000x16, .f32⟩ : BufTy).Contents (Elt Ideal)) (b1 : (⟨S16, .f32⟩ : BufTy).Contents (Elt Ideal))
    (w2 : (⟨S16x64, .f32⟩ : BufTy).Contents (Elt Ideal)) :
    fn2 (Stages.l2 (F := Ideal) a1 b1 w2) = mm (fun r j => max (fn2 a1 r j + fn1 b1 j) 0) (fn2 w2) := by
  funext r j
  refine (Coords.dot_d1_apply _ w2 r j).trans ?_
  refine Finset.sum_congr rfl fun k _ => ?_
  refine congrArg₂ (· * ·) ?_ rfl
  refine (maximumf_apply _ _ _).trans ?_
  refine congrArg₂ max ?_ Ideal.ofBits_zero_f32
  refine (addf_apply _ _ _).trans ?_
  exact congrArg₂ (· + ·) rfl (Coords.bias16_apply b1 r k)

theorem lsm_val (y : (⟨S100000x64, .f32⟩ : BufTy).Contents (Elt Ideal)) :
    fn2 (Stages.lsm (F := Ideal) y) = fun r => lsmR (fn2 y r) := by
  funext r j
  exact Coords.lsm_apply y r j

theorem mlp_val (a2 : (⟨S100000x64, .f32⟩ : BufTy).Contents (Elt Ideal)) (b2 : (⟨S64, .f32⟩ : BufTy).Contents (Elt Ideal))
    (wr : (⟨S100000x1, .f32⟩ : BufTy).Contents (Elt Ideal)) (mw : (⟨S64x64, .f32⟩ : BufTy).Contents (Elt Ideal))
    (mb : (⟨S64, .f32⟩ : BufTy).Contents (Elt Ideal)) :
    fn2 (Stages.mlp (F := Ideal) a2 b2 wr mw mb)
      = dense (fn2 mw) (fn1 mb) (fnCol wr) (fun r => lsmR (fun q => fn2 a2 r q + fn1 b2 q)) := by
  funext r j
  unfold Stages.mlp
  refine (addf_apply _ _ _).trans ?_
  refine congrArg₂ (· + ·) ?_ (Coords.rowsOf_apply mb r j)
  refine (Coords.dot_d2_apply _ mw r j).trans ?_
  refine Finset.sum_congr rfl fun k _ => ?_
  refine congrArg₂ (· * ·) ?_ rfl
  refine (mulf_apply _ _ _).trans ?_
  refine congrArg₂ (· * ·) ((Coords.col_apply _ r k).trans (Coords.hostExp_apply wr _)) ?_
  refine (Coords.lsm_apply _ r k).trans ?_
  refine congrArg (fun z => lsmR z k) (funext fun q => ?_)
  exact (addf_apply _ _ _).trans (congrArg₂ (· + ·) rfl (Coords.rowsOf_apply b2 r q))

theorem bn_val (M : (⟨S100000x64, .f32⟩ : BufTy).Contents (Elt Ideal)) (g be : (⟨S64, .f32⟩ : BufTy).Contents (Elt Ideal)) :
    fn2 (Stages.bn (F := Ideal) M g be) = bnorm (fn1 g) (fn1 be) (fn2 M) (varR (fn2 M)) := by
  funext r j
  unfold Stages.bn
  refine (addf_apply _ _ _).trans ?_
  refine congrArg₂ (· + ·) ?_ (Coords.rowsOf_apply be r j)
  refine (mulf_apply _ _ _).trans ?_
  refine congrArg₂ (· * ·) ?_ (Coords.rowsOf_apply g r j)
  refine (mulf_apply _ _ _).trans ?_
  refine congrArg₂ (· * ·) (Coords.centerT_apply M r j) ?_
  refine (Coords.rowsOf_apply _ r j).trans ?_
  refine (Coords.hostRsqrt_apply _ _).trans (congrArg Ideal.rsqrt ?_)
  refine (addf_apply _ _ _).trans ?_
  exact congrArg₂ (· + ·) (Coords.colVarT_apply M j) rfl

theorem ref_value (e : Edges) (x : (⟨S100000x1024, .f32⟩ : BufTy).Contents (Elt Ideal))
    (w1 : (⟨S1024x16, .f32⟩ : BufTy).Contents (Elt Ideal)) (b1 : (⟨S16, .f32⟩ : BufTy).Contents (Elt Ideal))
    (w2 : (⟨S16x64, .f32⟩ : BufTy).Contents (Elt Ideal)) (b2 : (⟨S64, .f32⟩ : BufTy).Contents (Elt Ideal))
    (mw : (⟨S64x64, .f32⟩ : BufTy).Contents (Elt Ideal)) (mb : (⟨S64, .f32⟩ : BufTy).Contents (Elt Ideal))
    (g be : (⟨S64, .f32⟩ : BufTy).Contents (Elt Ideal)) (wr : (⟨S100000x1, .f32⟩ : BufTy).Contents (Elt Ideal)) :
    fn2 (Stages.out (F := Ideal) e x w1 b1 w2 b2 mw mb g be wr)
      = outR (aggFn16 e) (aggFn64 e) (fn2 x) (fn2 w1) (fn1 b1) (fn2 w2) (fn1 b2) (fn2 mw) (fn1 mb) (fn1 g) (fn1 be) (fnCol wr) := by
  unfold Stages.out
  rw [lsm_val, bn_val, mlp_val, ← aggFn64_fn2, l2_val, ← aggFn16_fn2, h1_val]
  rfl

end Cert.ReferenceIdeal.RefVal

end
-- ==== Proof.Alg1.lean ====
import proofs.«405293_j84817014161572_1_alg».proof.Proof.Spec

noncomputable section

open scoped BigOperators

namespace Gcn

open Idealize.ShloMosaic

theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fin_sum {ι : Type} (s : Finset ι) (f : ι → EReal) (h : ∀ i ∈ s, ∃ x : ℝ, f i = x) :
    ∃ x : ℝ, ∑ i ∈ s, f i = x := by
  classical
  induction s using Finset.induction_on with
  | empty => exact ⟨0, by simp⟩
  | insert a s ha ih =>
    obtain ⟨xa, hxa⟩ := h a (Finset.mem_insert_self a s)
    obtain ⟨xs, hxs⟩ := ih (fun i hi => h i (Finset.mem_insert_of_mem hi))
    exact ⟨xa + xs, by rw [Finset.sum_insert ha, hxa, hxs, EReal.coe_add]⟩

theorem fin_mul {a b : EReal} (ha : ∃ x : ℝ, a = x) (hb : ∃ x : ℝ, b = x) : ∃ x : ℝ, a * b = x := by
  obtain ⟨u, rfl⟩ := ha
  obtain ⟨v, rfl⟩ := hb
  exact ⟨u * v, (EReal.coe_mul u v).symm⟩

theorem fin_add {a b : EReal} (ha : ∃ x : ℝ, a = x) (hb : ∃ x : ℝ, b = x) : ∃ x : ℝ, a + b = x := by
  obtain ⟨u, rfl⟩ := ha
  obtain ⟨v, rfl⟩ := hb
  exact ⟨u + v, (EReal.coe_add u v).symm⟩

theorem fin_exp {a : EReal} (ha : ∃ x : ℝ, a = x) : ∃ x : ℝ, Ideal.exp a = x := by
  obtain ⟨u, rfl⟩ := ha
  exact ⟨Real.exp u, Ideal.exp_coe u⟩

theorem rowMax_real {z : Fin 64 → EReal} (hz : Fin1 z) : ∃ M : ℝ, rowMax z = M := by
  obtain ⟨i, -, hi⟩ := Finset.exists_mem_eq_sup (Finset.univ : Finset (Fin 64)) Finset.univ_nonempty z
  obtain ⟨x, hx⟩ := hz i
  exact ⟨x, by rw [rowMax, hi, hx]⟩

theorem rowSumExp_pos {z : Fin 64 → EReal} (hz : Fin1 z) : ∃ s : ℝ, 0 < s ∧ rowSumExp z = s := by
  obtain ⟨M, hM⟩ := rowMax_real hz
  have hz' : ∀ j, ∃ x : ℝ, z j = (x : EReal) := hz
  choose x hx using hz'
  refine ⟨∑ q : Fin 64, Real.exp (x q - M),
    Finset.sum_pos (fun q _ => Real.exp_pos _) Finset.univ_nonempty, ?_⟩
  rw [rowSumExp, hM, ← coe_sum]
  refine Finset.sum_congr rfl (fun q _ => ?_)
  rw [hx q, ← EReal.coe_sub, Ideal.exp_coe]

theorem log_rowSumExp_real {z : Fin 64 → EReal} (hz : Fin1 z) :
    ∃ l : ℝ, Ideal.log (rowSumExp z) = l := by
  obtain ⟨s, hs0, hs⟩ := rowSumExp_pos hz
  exact ⟨Real.log s, by rw [hs, Ideal.log_coe, if_neg (not_le.mpr hs0)]⟩

theorem lsm_eq {z : Fin 64 → EReal} (hz : Fin1 z) : lsmK z = lsmR z := by
  obtain ⟨M, hM⟩ := rowMax_real hz
  obtain ⟨l, hl⟩ := log_rowSumExp_real hz
  funext j
  obtain ⟨x, hx⟩ := hz j

  rw [lsmK, lsmR, hM, hl, hx, ← EReal.coe_add, ← EReal.coe_sub, ← EReal.coe_sub, ← EReal.coe_sub]
  exact congrArg _ (by ring)

theorem fin1_lsmR {z : Fin 64 → EReal} (hz : Fin1 z) : Fin1 (lsmR z) := by
  obtain ⟨M, hM⟩ := rowMax_real hz
  obtain ⟨l, hl⟩ := log_rowSumExp_real hz
  intro j
  obtain ⟨x, hx⟩ := hz j
  exact ⟨x - M - l, by rw [lsmR, hM, hl, hx, EReal.coe_sub, EReal.coe_sub]⟩

theorem fin2_mm {n k m : ℕ} {a : Mat n k} {b : Mat k m} (ha : Fin2 a) (hb : Fin2 b) : Fin2 (mm a b) := by
  intro r j
  show ∃ x : ℝ, ∑ q : Fin k, a r q * b q j = x
  exact fin_sum _ _ (fun q _ => fin_mul (ha r q) (hb q j))

section Layers

variable {agg16 : Mat NN 16 → Mat NN 16} {agg64 : Mat NN 64 → Mat NN 64}
variable {x : Mat NN 1024} {w1 : Mat 1024 16} {b1 : Fin 16 → EReal} {w2 : Mat 16 64} {b2 : Fin 64 → EReal}
  {mw : Mat 64 64} {mb : Fin 64 → EReal} {wr : Fin NN → EReal}

theorem fin2_hid1 (h16 : ∀ m, Fin2 m → Fin2 (agg16 m)) (hx : Fin2 x) (hw1 : Fin2 w1) (hb1 : Fin1 b1) :
    Fin2 (hid1 agg16 x w1 b1) := by
  intro r j
  obtain ⟨u, hu⟩ := h16 _ (fin2_mm hx hw1) r j
  obtain ⟨v, hv⟩ := hb1 j
  refine ⟨max (u + v) 0, ?_⟩
  show max (agg16 (mm x w1) r j + b1 j) 0 = _

  rw [hu, hv, ← EReal.coe_add, EReal.coe_strictMono.monotone.map_max, EReal.coe_zero]

theorem fin2_logits (h16 : ∀ m, Fin2 m → Fin2 (agg16 m)) (h64 : ∀ m, Fin2 m → Fin2 (agg64 m))
    (hx : Fin2 x) (hw1 : Fin2 w1) (hb1 : Fin1 b1) (hw2 : Fin2 w2) (hb2 : Fin1 b2) :
    Fin2 (logits agg16 agg64 x w1 b1 w2 b2) := by
  intro r j
  show ∃ y : ℝ, agg64 (mm (hid1 agg16 x w1 b1) w2) r j + b2 j = y
  exact fin_add (h64 _ (fin2_mm (fin2_hid1 h16 hx hw1 hb1) hw2) r j) (hb2 j)

theorem fin2_dense {ls : Mat NN 64} (hls : Fin2 ls) (hmw : Fin2 mw) (hmb : Fin1 mb) (hwr : Fin1 wr) :
    Fin2 (dense mw mb wr ls) := by
  intro r j
  show ∃ y : ℝ, (∑ q : Fin 64, (Ideal.exp (wr r) * ls r q) * mw q j) + mb j = y
  exact fin_add
    (fin_sum _ _ (fun q _ => fin_mul (fin_mul (fin_exp (hwr r)) (hls r q)) (hmw q j))) (hmb j)

end Layers

end Gcn

end
-- ==== Proof.Alg2.lean ====
import proofs.«405293_j84817014161572_1_alg».proof.Proof.Spec
import proofs.«405293_j84817014161572_1_alg».proof.Proof.Alg1

noncomputable section

open scoped BigOperators

namespace Gcn

open Idealize.ShloMosaic

theorem cN_eq : cN = ((100000 : ℝ) : EReal) := by

  simp [Ideal.ofBits, Ideal.ieee, -EReal.coe_mul]; norm_num

theorem cEps_pos : ∃ e : ℝ, 0 < e ∧ cEps = (e : EReal) := by

  simp [Ideal.ofBits, Ideal.ieee, -EReal.coe_mul]

theorem v_coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

theorem v_colMean (f : Fin NN → Fin 64 → ℝ) (j : Fin 64) :
    colMean (fun r j => ((f r j : ℝ) : EReal)) j = (((∑ r : Fin NN, f r j) * (1 / 100000) : ℝ) : EReal) := by
  show Ideal.div (∑ r : Fin NN, ((f r j : ℝ) : EReal)) cN = _
  rw [cN_eq, Ideal.div_coe (by norm_num), v_coe_sum, ← EReal.coe_mul]

theorem v_varR (f : Fin NN → Fin 64 → ℝ) (j : Fin 64) :
    varR (fun r j => ((f r j : ℝ) : EReal)) j
      = (((∑ r : Fin NN, (f r j - (∑ r : Fin NN, f r j) * (1 / 100000)) * (f r j - (∑ r : Fin NN, f r j) * (1 / 100000)))
          * (1 / 100000) : ℝ) : EReal) := by
  show Ideal.div (∑ r : Fin NN, (((f r j : ℝ) : EReal) - colMean (fun r j => ((f r j : ℝ) : EReal)) j)
      * (((f r j : ℝ) : EReal) - colMean (fun r j => ((f r j : ℝ) : EReal)) j)) cN = _
  rw [v_colMean, cN_eq, Ideal.div_coe (by norm_num)]
  simp only [← EReal.coe_sub, ← EReal.coe_mul, v_coe_sum]

theorem v_varK (f : Fin NN → Fin 64 → ℝ) (j : Fin 64) :
    varK (fun r j => ((f r j : ℝ) : EReal)) j
      = (((∑ r : Fin NN, f r j * f r j) * (1 / 100000)
          - (∑ r : Fin NN, f r j) * (1 / 100000) * ((∑ r : Fin NN, f r j) * (1 / 100000)) : ℝ) : EReal) := by
  show Ideal.div (∑ r : Fin NN, ((f r j : ℝ) : EReal) * ((f r j : ℝ) : EReal)) cN
      - colMean (fun r j => ((f r j : ℝ) : EReal)) j * colMean (fun r j => ((f r j : ℝ) : EReal)) j = _
  rw [v_colMean, cN_eq, Ideal.div_coe (by norm_num)]
  simp only [← EReal.coe_sub, ← EReal.coe_mul, v_coe_sum]

theorem v_sum_dev (a : Fin NN → ℝ) (μ : ℝ) :
    ∑ r : Fin NN, (a r - μ) * (a r - μ)
      = (∑ r : Fin NN, a r * a r) - 2 * μ * (∑ r : Fin NN, a r) + 100000 * (μ * μ) := by
  have h : ∀ r : Fin NN, (a r - μ) * (a r - μ) = a r * a r - 2 * μ * a r + μ * μ := fun r => by ring
  rw [Finset.sum_congr rfl (fun r _ => h r), Finset.sum_add_distrib, Finset.sum_sub_distrib, ← Finset.mul_sum,
    Finset.sum_const, Finset.card_univ, Fintype.card_fin, nsmul_eq_mul]
  norm_num

theorem var_eq {m : Mat NN 64} (hm : Fin2 m) : varK m = varR m := by
  choose f hf using hm
  have hmf : m = fun r j => ((f r j : ℝ) : EReal) := by funext r j; exact hf r j
  subst hmf
  funext j
  rw [v_varK, v_varR, v_sum_dev]
  congr 1
  ring

theorem fin2_bnorm {g be : Fin 64 → EReal} {m : Mat NN 64} (hm : Fin2 m) (hg : Fin1 g) (hbe : Fin1 be) :
    Fin2 (bnorm g be m (varR m)) := by
  choose f hf using hm
  have hmf : m = fun r j => ((f r j : ℝ) : EReal) := by funext r j; exact hf r j
  subst hmf
  intro r j
  obtain ⟨e, he, hce⟩ := cEps_pos
  obtain ⟨gj, hgj⟩ := hg j
  obtain ⟨bj, hbj⟩ := hbe j

  have hv : 0 ≤ (∑ r : Fin NN, (f r j - (∑ r : Fin NN, f r j) * (1 / 100000)) * (f r j - (∑ r : Fin NN, f r j) * (1 / 100000)))
      * (1 / 100000 : ℝ) :=
    mul_nonneg (Finset.sum_nonneg fun r _ => mul_self_nonneg _) (by norm_num)
  show ∃ x : ℝ, ((((f r j : ℝ) : EReal) - colMean (fun r j => ((f r j : ℝ) : EReal)) j)
      * Ideal.rsqrt (varR (fun r j => ((f r j : ℝ) : EReal)) j + cEps)) * g j + be j = (x : EReal)
  rw [v_colMean, v_varR, hce, hgj, hbj, ← EReal.coe_add, Ideal.rsqrt_coe,
    if_neg (not_lt.mpr (add_nonneg hv he.le)), if_neg (add_pos_of_nonneg_of_pos hv he).ne',
    ← EReal.coe_sub, ← EReal.coe_mul, ← EReal.coe_mul, ← EReal.coe_add]
  exact ⟨_, rfl⟩

theorem out_eq (agg16 : Mat NN 16 → Mat NN 16) (agg64 : Mat NN 64 → Mat NN 64)
    (x : Mat NN 1024) (w1 : Mat 1024 16) (b1 : Fin 16 → EReal) (w2 : Mat 16 64) (b2 : Fin 64 → EReal)
    (mw : Mat 64 64) (mb : Fin 64 → EReal) (g be : Fin 64 → EReal) (wr : Fin NN → EReal)
    (h16 : ∀ m, Fin2 m → Fin2 (agg16 m)) (h64 : ∀ m, Fin2 m → Fin2 (agg64 m))
    (hx : Fin2 x) (hw1 : Fin2 w1) (hb1 : Fin1 b1) (hw2 : Fin2 w2) (hb2 : Fin1 b2)
    (hmw : Fin2 mw) (hmb : Fin1 mb) (hg : Fin1 g) (hbe : Fin1 be) (hwr : Fin1 wr) :
    outK agg16 agg64 x w1 b1 w2 b2 mw mb g be wr = outR agg16 agg64 x w1 b1 w2 b2 mw mb g be wr := by

  have hL : Fin2 (logits agg16 agg64 x w1 b1 w2 b2) := fin2_logits h16 h64 hx hw1 hb1 hw2 hb2
  have hmlp : mlpK agg16 agg64 x w1 b1 w2 b2 mw mb wr = mlpR agg16 agg64 x w1 b1 w2 b2 mw mb wr :=
    congrArg (dense mw mb wr) (funext fun r => lsm_eq (hL r))

  have hM : Fin2 (mlpR agg16 agg64 x w1 b1 w2 b2 mw mb wr) := by
    show Fin2 (dense mw mb wr (fun r => lsmR (logits agg16 agg64 x w1 b1 w2 b2 r)))
    exact fin2_dense (fun r => fin1_lsmR (hL r)) hmw hmb hwr
  funext r
  show lsmK (bnorm g be (mlpK agg16 agg64 x w1 b1 w2 b2 mw mb wr) (varK (mlpK agg16 agg64 x w1 b1 w2 b2 mw mb wr)) r)
     = lsmR (bnorm g be (mlpR agg16 agg64 x w1 b1 w2 b2 mw mb wr) (varR (mlpR agg16 agg64 x w1 b1 w2 b2 mw mb wr)) r)
  rw [hmlp, var_eq hM]
  exact lsm_eq (fin2_bnorm hM hg hbe r)

end Gcn

end
-- ==== Proof.LibRealHost.lean ====
import Idealize.ShloMosaic.PureOps.Ideal
import Idealize.ShloMosaic.PureOps.Ideal.Laws

noncomputable section

open scoped BigOperators

namespace RealHost

open Idealize.ShloMosaic

def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {a b : EReal} (ha : IsReal a) (hb : IsReal b) : IsReal (a + b) := by
  obtain ⟨u, rfl⟩ := ha
  obtain ⟨v, rfl⟩ := hb
  exact ⟨u + v, (EReal.coe_add u v).symm⟩

theorem IsReal.mul {a b : EReal} (ha : IsReal a) (hb : IsReal b) : IsReal (a * b) := by
  obtain ⟨u, rfl⟩ := ha
  obtain ⟨v, rfl⟩ := hb
  exact ⟨u * v, (EReal.coe_mul u v).symm⟩

theorem coe_max (u v : ℝ) : ((max u v : ℝ) : EReal) = max (u : EReal) (v : EReal) :=
  EReal.coe_strictMono.monotone.map_max

theorem IsReal.max {a b : EReal} (ha : IsReal a) (hb : IsReal b) : IsReal (max a b) := by
  obtain ⟨u, rfl⟩ := ha
  obtain ⟨v, rfl⟩ := hb
  exact ⟨Max.max u v, (coe_max u v).symm⟩

theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_max_one {a : EReal} (ha : IsReal a) : IsReal (Ideal.rsqrt (max a 1)) := by
  obtain ⟨u, rfl⟩ := ha
  rw [← EReal.coe_one, ← coe_max, rsqrt_coe_of_pos (lt_of_lt_of_le one_pos (le_max_right u 1))]
  exact isReal_coe _

theorem ofBits_f32_one : Ideal.ofBits .f32 0x3F800000#32 = 1 := by
  simp [Ideal.ofBits, Ideal.ieee, -EReal.coe_mul]; norm_num

section Arrays

variable {s si su t : Shape} {w : Nat} {φ : FTy}

theorem scatterAdd_isReal (d : ScatterDims s si su) (x : FVec Ideal s φ) (idx : IVec si w) (upd : FVec Ideal su φ)
    (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ (fun j _ => hu j))

theorem gather_isReal (d : GatherDims s si t) (x : s.Idx → EReal) (idx : IVec si w)
    (hx : ∀ i, IsReal (x i)) (j : t.Idx) : IsReal (Host.gather d x idx j) := hx _

theorem broadcastInDim_isReal (dims : Fin s.rank → Fin t.rank) (h : s.BroadcastsInDim t dims) (x : s.Idx → EReal)
    (hx : ∀ i, IsReal (x i)) (j : t.Idx) : IsReal (broadcastInDim t dims h x j) := hx _

theorem mulf_isReal (x y : FVec Ideal s φ) (hx : ∀ i, IsReal (x i)) (hy : ∀ i, IsReal (y i)) (i : s.Idx) :
    IsReal (mulf x y i) := (hx i).mul (hy i)

theorem maximumf_isReal (x y : FVec Ideal s φ) (hx : ∀ i, IsReal (x i)) (hy : ∀ i, IsReal (y i)) (i : s.Idx) :
    IsReal (maximumf x y i) := (hx i).max (hy i)

theorem constant_f32_zero (i : s.Idx) : (constant s .f32 0x00000000#32 : FVec Ideal s .f32) i = 0 :=
  Ideal.ofBits_zero_f32

theorem constant_f32_one (i : s.Idx) : (constant s .f32 0x3F800000#32 : FVec Ideal s .f32) i = 1 :=
  ofBits_f32_one

theorem rsqrt_max_one_isReal (x y : FVec Ideal s φ) (hx : ∀ i, IsReal (x i)) (hy : ∀ i, y i = 1) (i : s.Idx) :
    IsReal (Host.rsqrt (maximumf x y) i) := by
  show IsReal (Ideal.rsqrt (max (x i) (y i)))
  rw [hy i]
  exact isReal_rsqrt_max_one (hx i)

end Arrays

end RealHost

end
-- ==== Proof.AggFin.lean ====
import proofs.«405293_j84817014161572_1_alg».proof.Proof.AggFn
import proofs.«405293_j84817014161572_1_alg».proof.Proof.Alg1
import proofs.«405293_j84817014161572_1_alg».proof.Proof.LibRealHost

noncomputable section

namespace Gcn

open Idealize.ShloMosaic Cert.KernelIdeal Cert.KernelIdeal.Gen RealHost

theorem degT_real (e : Edges) (i : S100000.Idx) : IsReal (Glue.degT (F := Ideal) e i) := by
  unfold Glue.degT
  exact scatterAdd_isReal _ _ _ _
    (broadcastInDim_isReal _ _ _ (fun k => by rw [constant_f32_zero]; exact isReal_zero))
    (broadcastInDim_isReal _ _ _ (fun k => by rw [constant_f32_one]; exact isReal_one)) i

theorem disT_real (e : Edges) (i : S100000.Idx) : IsReal (Glue.disT (F := Ideal) e i) := by
  unfold Glue.disT
  exact rsqrt_max_one_isReal _ _ (degT_real e) (fun k => constant_f32_one _) i

theorem normT_real (e : Edges) (i : S3300000.Idx) : IsReal (Glue.normT (F := Ideal) e i) := by
  unfold Glue.normT
  exact mulf_isReal _ _ (gather_isReal _ _ _ (disT_real e)) (gather_isReal _ _ _ (disT_real e)) i

theorem agg16C_real (s d : (⟨S3300000, .i32⟩ : BufTy).Contents (Elt Ideal)) (nrm : (⟨S3300000, .f32⟩ : BufTy).Contents (Elt Ideal))
    (h : (⟨S100000x16, .f32⟩ : BufTy).Contents (Elt Ideal)) (hn : ∀ i, IsReal (nrm i)) (hh : ∀ i, IsReal (h i))
    (i : S100000x16.Idx) : IsReal (Glue.agg16C (F := Ideal) s d nrm h i) := by
  unfold Glue.agg16C
  exact scatterAdd_isReal _ _ _ _
    (broadcastInDim_isReal _ _ _ (fun k => by rw [constant_f32_zero]; exact isReal_zero))
    (mulf_isReal _ _ (gather_isReal _ _ _ hh)
      (broadcastInDim_isReal _ _ _ (broadcastInDim_isReal _ _ _ hn))) i

theorem agg64C_real (s d : (⟨S3300000, .i32⟩ : BufTy).Contents (Elt Ideal)) (nrm : (⟨S3300000, .f32⟩ : BufTy).Contents (Elt Ideal))
    (h : (⟨S100000x64, .f32⟩ : BufTy).Contents (Elt Ideal)) (hn : ∀ i, IsReal (nrm i)) (hh : ∀ i, IsReal (h i))
    (i : S100000x64.Idx) : IsReal (Glue.agg64C (F := Ideal) s d nrm h i) := by
  unfold Glue.agg64C
  exact scatterAdd_isReal _ _ _ _
    (broadcastInDim_isReal _ _ _ (fun k => by rw [constant_f32_zero]; exact isReal_zero))
    (mulf_isReal _ _ (gather_isReal _ _ _ hh)
      (broadcastInDim_isReal _ _ _ (broadcastInDim_isReal _ _ _ hn))) i

theorem aggFn16_fin (e : Edges) : ∀ h : Mat NN 16, Fin2 h → Fin2 (aggFn16 e h) := by
  intro h hh r j
  exact agg16C_real _ _ _ _ (normT_real e) (fun i => hh (i 0) (i 1)) (ValueIdx.ix2 r j)

theorem aggFn64_fin (e : Edges) : ∀ h : Mat NN 64, Fin2 h → Fin2 (aggFn64 e h) := by
  intro h hh r j
  exact agg64C_real _ _ _ _ (normT_real e) (fun i => hh (i 0) (i 1)) (ValueIdx.ix2 r j)

end Gcn

end
-- ==== Proof.PreFin.lean ====
import proofs.«405293_j84817014161572_1_alg».proof.Pre_finite_inputs
import proofs.«405293_j84817014161572_1_alg».proof.Proof.Spec
import Idealize.ShloMosaic.Lib.ReduceAll
import Idealize.ShloMosaic.Lib.ValueIdx

noncomputable section

namespace Cert.PreFin

open Idealize.ShloMosaic Idealize.ShloMosaic.ValueIdx Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem andi_apply {s : Shape} {w : Nat} (a b : IVec s w) (i : s.Idx) : andi a b i = IntOp.andi (a i) (b i) := rfl

theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) := by
  have e := Host.reduce_andi_all _ _ hr hu ix0 h i
  have e' : Ideal.cmp .olt (max (x i) (-(x i))) (Ideal.ofBits .f32 0x7F800000#32) = 1#1 := e
  rw [ofBits_inf] at e'
  refine real_of_abs_lt_top (x i) ?_
  by_contra hn
  have : Ideal.cmp .olt (max (x i) (-(x i))) ⊤ = 0#1 := by
    simp [Ideal.cmp, hn]
  rw [this] at e'
  exact absurd e' (by decide)

variable [Cert.Pre_finite_inputs.Facts]

theorem fin_of_pre (x : FVec Ideal Cert.Pre_finite_inputs.S100000x1024 .f32) (e : IVec Cert.Pre_finite_inputs.S2x3200000 32) (w1 : FVec Ideal Cert.Pre_finite_inputs.S1024x16 .f32) (b1 : FVec Ideal Cert.Pre_finite_inputs.S16 .f32) (w2 : FVec Ideal Cert.Pre_finite_inputs.S16x64 .f32) (b2 : FVec Ideal Cert.Pre_finite_inputs.S64 .f32) (mw : FVec Ideal Cert.Pre_finite_inputs.S64x64 .f32) (mb g be : FVec Ideal Cert.Pre_finite_inputs.S64 .f32) (wr : FVec Ideal Cert.Pre_finite_inputs.S100000x1 .f32) (h : Cert.Pre_finite_inputs.fn (F := Ideal) x e w1 b1 w2 b2 mw mb g be wr = fun _ => 1#1) : Gcn.Fin2 (Gcn.fn2 x) ∧ Gcn.Fin2 (Gcn.fn2 w1) ∧ Gcn.Fin1 (Gcn.fn1 b1) ∧ Gcn.Fin2 (Gcn.fn2 w2) ∧ Gcn.Fin1 (Gcn.fn1 b2) ∧ Gcn.Fin2 (Gcn.fn2 mw) ∧ Gcn.Fin1 (Gcn.fn1 mb) ∧ Gcn.Fin1 (Gcn.fn1 g) ∧ Gcn.Fin1 (Gcn.fn1 be) ∧ Gcn.Fin1 (Gcn.fnCol wr) := by
  have h0 := congrFun h ix0
  dsimp only [fn, fn_part1, fn_part2] at h0
  simp only [andi_apply, IntOp.andi_eq_one] at h0
  obtain ⟨⟨⟨⟨⟨⟨⟨⟨⟨hx, hw1⟩, hb1⟩, hw2⟩, hb2⟩, hmw⟩, hmb⟩, hg⟩, hbe⟩, hwr⟩ := h0
  refine ⟨fun r j => ?_, fun r j => ?_, fun j => ?_, fun r j => ?_, fun j => ?_, fun r j => ?_, fun j => ?_, fun j => ?_, fun j => ?_, fun r => ?_⟩
  · exact real_of_all x _ _ _ hx (ix2 r j)
  · exact real_of_all w1 _ _ _ hw1 (ix2 r j)
  · exact real_of_all b1 _ _ _ hb1 (ix1 j)
  · exact real_of_all w2 _ _ _ hw2 (ix2 r j)
  · exact real_of_all b2 _ _ _ hb2 (ix1 j)
  · exact real_of_all mw _ _ _ hmw (ix2 r j)
  · exact real_of_all mb _ _ _ hmb (ix1 j)
  · exact real_of_all g _ _ _ hg (ix1 j)
  · exact real_of_all be _ _ _ hbe (ix1 j)
  · exact real_of_all wr _ _ _ hwr (ix2 r 0)

end Cert.PreFin

end
-- ==== Proof.lean ====
import proofs.«405293_j84817014161572_1_alg».proof.Defs
import proofs.«405293_j84817014161572_1_alg».proof.Proof.Gen.Kernel
import proofs.«405293_j84817014161572_1_alg».proof.Proof.Gen.KernelIdeal
import proofs.«405293_j84817014161572_1_alg».proof.Proof.Gen.ReferenceIdeal
import proofs.«405293_j84817014161572_1_alg».proof.Proof.Gen.Pre_finite_inputs
import proofs.«405293_j84817014161572_1_alg».proof.Proof.Run
import proofs.«405293_j84817014161572_1_alg».proof.Proof.KVal
import proofs.«405293_j84817014161572_1_alg».proof.Proof.RefRunH
import proofs.«405293_j84817014161572_1_alg».proof.Proof.RefVal
import proofs.«405293_j84817014161572_1_alg».proof.Proof.Alg2
import proofs.«405293_j84817014161572_1_alg».proof.Proof.AggFin
import proofs.«405293_j84817014161572_1_alg».proof.Proof.PreFin
import Idealize.ShloMosaic.Adequacy
import Idealize.ShloMosaic.Init

set_option maxRecDepth 16384

noncomputable section

namespace Cert.Proof

open Idealize.ShloMosaic Idealize.SL.Sem

-- The two kernel programs are one text: body by body they unfold to the same term.
set_option maxHeartbeats 1000000 in
theorem defs₀_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => rfl
  | 1, (t, s) => rfl
  | 2, (t, s) => rfl
  | 3, (t, s) => rfl
  | ⟨_ + 4, h⟩, _ => exact absurd h (Nat.not_lt.2 (Nat.le_add_left _ _))

set_option maxHeartbeats 1000000 in
theorem defs_eq : Cert.Kernel.defs (F := Bits) = Cert.KernelIdeal.defs (F := Bits) :=
  congrArg (Pipeline.defs Cert.Kernel.pcfgs) defs₀_eq

-- The launch is proved once for any float instance, so it serves the first program too.
set_option maxHeartbeats 1000000 in
theorem frame_k : Cert.frame_Kernel := fun m ρ _ =>
  (θ_run Cert.Kernel.defs _ _).mono (fun _ h c => (h c).2)
    (Eq.mpr (congrArg (fun d => θ_run d _ _ _) defs_eq) (Cert.KernelIdeal.Fr.run_all (F := Bits) m ρ))

theorem frame_ki : Cert.frame_KernelIdeal := fun m ρ _ =>
  (θ_run Cert.KernelIdeal.defs _ _).mono (fun _ h c => (h c).2) (Cert.KernelIdeal.Fr.run_all m ρ)

theorem frame_ri : Cert.frame_ReferenceIdeal := fun m ρ _ =>
  (θ_run Cert.ReferenceIdeal.defs _ _).mono (fun _ h c => (h c).2) (Cert.ReferenceIdeal.RunH.ref_run (F := Ideal) m ρ)

theorem eq_of_fn2 {a b : ℕ} {v w : (⟨2, ![a, b]⟩ : Shape).Idx → EReal} (h : Gcn.fn2 v = Gcn.fn2 w) : v = w := by
  rw [← Gcn.arr2_fn2 v, ← Gcn.arr2_fn2 w, h]

theorem algebraic : Cert.algebraic_KernelIdeal_ReferenceIdeal := by
  intro m ρ m' ρ' hpre hagree
  refine ⟨fun c => (Cert.KernelIdeal.Fr.dat3 (F := Ideal) (Cert.KernelIdeal.Fr.En7 m ρ) c).arrAt 5 Cert.KernelIdeal.cfg3.N,
    Cert.KernelIdeal.Fr.run_all m ρ, ?_⟩
  refine (θ_run Cert.ReferenceIdeal.defs _ _).mono (fun _ h c => ⟨(h c).1.trans ?_, (h c).2⟩)
    (Cert.ReferenceIdeal.RunH.ref_run (F := Ideal) m' ρ')
  obtain ⟨h0, h1, h2, h3, h4, h5, h6, h7, h8, h9, h10⟩ := hagree c
  rw [h0, h1, h2, h3, h4, h5, h6, h7, h8, h9, h10]
  apply eq_of_fn2
  rw [Cert.ReferenceIdeal.RefVal.ref_value]
  refine Eq.trans ?_ (Cert.KernelIdeal.Val.kernel_value m ρ c).symm
  obtain ⟨fx, fw1, fb1, fw2, fb2, fmw, fmb, fg, fbe, fwr⟩ := Cert.PreFin.fin_of_pre _ _ _ _ _ _ _ _ _ _ _ (hpre c)
  exact (Gcn.out_eq _ _ _ _ _ _ _ _ _ _ _ _ (Gcn.aggFn16_fin _) (Gcn.aggFn64_fin _) fx fw1 fb1 fw2 fb2 fmw fmb fg fbe fwr).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
